-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096 : Shape := ⟨2, ![512, 4096]⟩
abbrev S4x32 : Shape := ⟨2, ![4, 32]⟩
abbrev S4x4096 : Shape := ⟨2, ![4, 4096]⟩
abbrev S4096x4096 : Shape := ⟨2, ![4096, 4096]⟩
abbrev S32x4096 : Shape := ⟨2, ![32, 4096]⟩
abbrev S32 : Shape := ⟨1, ![32]⟩
abbrev S32x32 : Shape := ⟨2, ![32, 32]⟩
abbrev S4096x32 : Shape := ⟨2, ![4096, 32]⟩
abbrev S4096 : Shape := ⟨1, ![4096]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S4x32 : S_.BroadcastsInDim S4x32 (![] : Fin 0 → Fin S4x32.rank)
  reducesTo_S4x32_S_d0_1 : S4x32.ReducesTo [0, 1] S_
  bcast_S_S4x4096 : S_.BroadcastsInDim S4x4096 (![] : Fin 0 → Fin S4x4096.rank)
  reducesTo_S4x4096_S_d0_1 : S4x4096.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S32x4096 : S_.BroadcastsInDim S32x4096 (![] : Fin 0 → Fin S32x4096.rank)
  reducesTo_S32x4096_S_d0_1 : S32x4096.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_

variable [Facts]

def fn_part3 {F : FTy → Type} [FloatOps F] (main_arg11 : FVec F S4096 .f32) (main_v48 : IVec S_ 1) (main_v49 : FVec F S4096x32 .f32) (main_v50 : FVec F S4096x32 .f32) : IVec S_ 1 :=
  let main_v51 : IVec S4096x32 1 := cmpf .olt main_v49 main_v50
  let main_c_19 : IVec S_ 1 := constantI S_ 1 1#1
  let main_v52 : IVec S_ 1 := (fun x v => Host.reduce IntOp.andi x v reducesTo_S4096x32_S_d0_1 h_S_) main_v51 main_c_19
  let main_v53 : IVec S_ 1 := andi main_v48 main_v52
  let main_v54 : FVec F S4096 .f32 := Host.absf main_arg11
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  main_v58

def fn_part2 {F : FTy → Type} [FloatOps F] (main_arg7 : FVec F S32 .f32) (main_arg8 : FVec F S32x32 .f32) (main_arg9 : FVec F S32 .f32) (main_arg10 : FVec F S4096x32 .f32) (main_arg11 : FVec F S4096 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S4096x32 .f32 := Host.absf main_arg10
  let main_cst_18 : FVec F S_ .f32 := constant S_ .f32 0x7F800000#32
  let main_v50 : FVec F S4096x32 .f32 := broadcastInDim S4096x32 ![] bcast_S_S4096x32 main_cst_18
  fn_part3 (F := F) main_arg11 main_v48 main_v49 main_v50

def fn_part1 {F : FTy → Type} [FloatOps F] (main_arg4 : FVec F S4x4096 .f32) (main_arg5 : FVec F S4096x4096 .f32) (main_arg6 : FVec F S32x4096 .f32) (main_arg7 : FVec F S32 .f32) (main_arg8 : FVec F S32x32 .f32) (main_arg9 : FVec F S32 .f32) (main_arg10 : FVec F S4096x32 .f32) (main_arg11 : FVec F S4096 .f32) (main_v13 : IVec S_ 1) (main_v16 : IVec S4x4096 1) : IVec S_ 1 :=
  let main_c_5 : IVec S_ 1 := constantI S_ 1 1#1
  let main_v17 : IVec S_ 1 := (fun x v => Host.reduce IntOp.andi x v reducesTo_S4x4096_S_d0_1 h_S_) main_v16 main_c_5
  let main_v18 : IVec S_ 1 := andi main_v13 main_v17
  let main_v19 : FVec F S4x4096 .f32 := Host.absf main_arg4
  let main_cst_6 : FVec F S_ .f32 := constant S_ .f32 0x7F800000#32
  let main_v20 : FVec F S4x4096 .f32 := broadcastInDim S4x4096 ![] bcast_S_S4x4096 main_cst_6
  let main_v21 : IVec S4x4096 1 := cmpf .olt main_v19 main_v20
  let main_c_7 : IVec S_ 1 := constantI S_ 1 1#1
  let main_v22 : IVec S_ 1 := (fun x v => Host.reduce IntOp.andi x v reducesTo_S4x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S32x4096 .f32 := Host.absf main_arg6
  let main_cst_10 : FVec F S_ .f32 := constant S_ .f32 0x7F800000#32
  let main_v30 : FVec F S32x4096 .f32 := broadcastInDim S32x4096 ![] bcast_S_S32x4096 main_cst_10
  let main_v31 : IVec S32x4096 1 := cmpf .olt main_v29 main_v30
  let main_c_11 : IVec S_ 1 := constantI S_ 1 1#1
  let main_v32 : IVec S_ 1 := (fun x v => Host.reduce IntOp.andi x v reducesTo_S32x4096_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S512x4096 .f32) (main_arg1 : FVec F S4x32 .f32) (main_arg2 : FVec F S4x4096 .f32) (main_arg3 : FVec F S4x4096 .f32) (main_arg4 : FVec F S4x4096 .f32) (main_arg5 : FVec F S4096x4096 .f32) (main_arg6 : FVec F S32x4096 .f32) (main_arg7 : FVec F S32 .f32) (main_arg8 : FVec F S32x32 .f32) (main_arg9 : FVec F S32 .f32) (main_arg10 : FVec F S4096x32 .f32) (main_arg11 : FVec F S4096 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S4x32 .f32 := Host.absf main_arg1
  let main_cst_0 : FVec F S_ .f32 := constant S_ .f32 0x7F800000#32
  let main_v5 : FVec F S4x32 .f32 := broadcastInDim S4x32 ![] bcast_S_S4x32 main_cst_0
  let main_v6 : IVec S4x32 1 := cmpf .olt main_v4 main_v5
  let main_c_1 : IVec S_ 1 := constantI S_ 1 1#1
  let main_v7 : IVec S_ 1 := (fun x v => Host.reduce IntOp.andi x v reducesTo_S4x32_S_d0_1 h_S_) main_v6 main_c_1
  let main_v8 : IVec S_ 1 := andi main_v3 main_v7
  let main_v9 : FVec F S4x4096 .f32 := Host.absf main_arg2
  let main_cst_2 : FVec F S_ .f32 := constant S_ .f32 0x7F800000#32
  let main_v10 : FVec F S4x4096 .f32 := broadcastInDim S4x4096 ![] bcast_S_S4x4096 main_cst_2
  let main_v11 : IVec S4x4096 1 := cmpf .olt main_v9 main_v10
  let main_c_3 : IVec S_ 1 := constantI S_ 1 1#1
  let main_v12 : IVec S_ 1 := (fun x v => Host.reduce IntOp.andi x v reducesTo_S4x4096_S_d0_1 h_S_) main_v11 main_c_3
  let main_v13 : IVec S_ 1 := andi main_v8 main_v12
  let main_v14 : FVec F S4x4096 .f32 := Host.absf main_arg3
  let main_cst_4 : FVec F S_ .f32 := constant S_ .f32 0x7F800000#32
  let main_v15 : FVec F S4x4096 .f32 := broadcastInDim S4x4096 ![] bcast_S_S4x4096 main_cst_4
  let main_v16 : IVec S4x4096 1 := cmpf .olt main_v14 main_v15
  fn_part1 (F := F) main_arg4 main_arg5 main_arg6 main_arg7 main_arg8 main_arg9 main_arg10 main_arg11 main_v13 main_v16
-- ==== Kernel.lean ====
abbrev S512x4096 : Shape := ⟨2, ![512, 4096]⟩
abbrev S4x32 : Shape := ⟨2, ![4, 32]⟩
abbrev S4x4096 : Shape := ⟨2, ![4, 4096]⟩
abbrev S4096x4096 : Shape := ⟨2, ![4096, 4096]⟩
abbrev S32x4096 : Shape := ⟨2, ![32, 4096]⟩
abbrev S32 : Shape := ⟨1, ![32]⟩
abbrev S32x32 : Shape := ⟨2, ![32, 32]⟩
abbrev S4096x32 : Shape := ⟨2, ![4096, 32]⟩
abbrev S4096 : Shape := ⟨1, ![4096]⟩
abbrev S1x32 : Shape := ⟨2, ![1, 32]⟩
abbrev S_ : Shape := ⟨0, ![]⟩
abbrev S1x4096 : Shape := ⟨2, ![1, 4096]⟩
abbrev S512x1024 : Shape := ⟨2, ![512, 1024]⟩
abbrev S1024x1024 : Shape := ⟨2, ![1024, 1024]⟩
abbrev S1x1024 : Shape := ⟨2, ![1, 1024]⟩
abbrev S2048x4096 : Shape := ⟨2, ![2048, 4096]⟩

abbrev nBuf : Space → Nat
  | .hbm => 53
  | .vmem => 52
  | .smem => 0
  | _ => 0

abbrev bufTy : (tb : Table) → Fin (tcTables nBuf tb) → BufTy
  | .hbm, ⟨0, _⟩ => ⟨S512x4096, .f32⟩
  | .hbm, ⟨1, _⟩ => ⟨S4x32, .f32⟩
  | .hbm, ⟨2, _⟩ => ⟨S4x4096, .f32⟩
  | .hbm, ⟨3, _⟩ => ⟨S4x4096, .f32⟩
  | .hbm, ⟨4, _⟩ => ⟨S4x4096, .f32⟩
  | .hbm, ⟨5, _⟩ => ⟨S4096x4096, .f32⟩
  | .hbm, ⟨6, _⟩ => ⟨S32x4096, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S4096x32, .f32⟩
  | .hbm, ⟨11, _⟩ => ⟨S4096, .f32⟩
  | .hbm, ⟨12, _⟩ => ⟨S4096x32, .f32⟩
  | .hbm, ⟨13, _⟩ => ⟨S4x32, .f32⟩
  | .hbm, ⟨14, _⟩ => ⟨S1x32, .f32⟩
  | .hbm, ⟨15, _⟩ => ⟨S4x32, .f32⟩
  | .hbm, ⟨16, _⟩ => ⟨S4x32, .f32⟩
  | .hbm, ⟨17, _⟩ => ⟨S_, .f32⟩
  | .hbm, ⟨18, _⟩ => ⟨S4x32, .f32⟩
  | .hbm, ⟨19, _⟩ => ⟨S4x32, .f32⟩
  | .hbm, ⟨20, _⟩ => ⟨S32x32, .f32⟩
  | .hbm, ⟨21, _⟩ => ⟨S4x32, .f32⟩
  | .hbm, ⟨22, _⟩ => ⟨S1x32, .f32⟩
  | .hbm, ⟨23, _⟩ => ⟨S4x32, .f32⟩
  | .hbm, ⟨24, _⟩ => ⟨S4x32, .f32⟩
  | .hbm, ⟨25, _⟩ => ⟨S_, .f32⟩
  | .hbm, ⟨26, _⟩ => ⟨S4x32, .f32⟩
  | .hbm, ⟨27, _⟩ => ⟨S4x32, .f32⟩
  | .hbm, ⟨28, _⟩ => ⟨S4x32, .f32⟩
  | .hbm, ⟨29, _⟩ => ⟨S4x32, .f32⟩
  | .hbm, ⟨30, _⟩ => ⟨S4x32, .f32⟩
  | .hbm, ⟨31, _⟩ => ⟨S32x4096, .f32⟩
  | .hbm, ⟨32, _⟩ => ⟨S4x4096, .f32⟩
  | .hbm, ⟨33, _⟩ => ⟨S1x4096, .f32⟩
  | .hbm, ⟨34, _⟩ => ⟨S4x4096, .f32⟩
  | .hbm, ⟨35, _⟩ => ⟨S4x4096, .f32⟩
  | .hbm, ⟨36, _⟩ => ⟨S1x4096, .f32⟩
  | .hbm, ⟨37, _⟩ => ⟨S1x4096, .f32⟩
  | .hbm, ⟨38, _⟩ => ⟨S1x4096, .f32⟩
  | .hbm, ⟨39, _⟩ => ⟨S512x4096, .f32⟩
  | .hbm, ⟨40, _⟩ => ⟨S1x4096, .f32⟩
  | .hbm, ⟨41, _⟩ => ⟨S1x4096, .f32⟩
  | .hbm, ⟨42, _⟩ => ⟨S1x4096, .f32⟩
  | .hbm, ⟨43, _⟩ => ⟨S512x4096, .f32⟩
  | .hbm, ⟨44, _⟩ => ⟨S1x4096, .f32⟩
  | .hbm, ⟨45, _⟩ => ⟨S1x4096, .f32⟩
  | .hbm, ⟨46, _⟩ => ⟨S1x4096, .f32⟩
  | .hbm, ⟨47, _⟩ => ⟨S512x4096, .f32⟩
  | .hbm, ⟨48, _⟩ => ⟨S1x4096, .f32⟩
  | .hbm, ⟨49, _⟩ => ⟨S1x4096, .f32⟩
  | .hbm, ⟨50, _⟩ => ⟨S1x4096, .f32⟩
  | .hbm, ⟨51, _⟩ => ⟨S512x4096, .f32⟩
  | .hbm, ⟨52, _⟩ => ⟨S2048x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1024x1024, .f32⟩
  | .local _ .vmem, ⟨16, _⟩ => ⟨S1024x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S1024x1024, .f32⟩
  | .local _ .vmem, ⟨29, _⟩ => ⟨S1024x1024, .f32⟩
  | .local _ .vmem, ⟨30, _⟩ => ⟨S1x1024, .f32⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | .local _ .vmem, ⟨34, _⟩ => ⟨S1x1024, .f32⟩
  | .local _ .vmem, ⟨35, _⟩ => ⟨S1x1024, .f32⟩
  | .local _ .vmem, ⟨36, _⟩ => ⟨S512x1024, .f32⟩
  | .local _ .vmem, ⟨37, _⟩ => ⟨S512x1024, .f32⟩
  | .local _ .vmem, ⟨38, _⟩ => ⟨S512x1024, .f32⟩
  | .local _ .vmem, ⟨39, _⟩ => ⟨S512x1024, .f32⟩
  | .local _ .vmem, ⟨40, _⟩ => ⟨S512x1024, .f32⟩
  | .local _ .vmem, ⟨41, _⟩ => ⟨S1024x1024, .f32⟩
  | .local _ .vmem, ⟨42, _⟩ => ⟨S1024x1024, .f32⟩
  | .local _ .vmem, ⟨43, _⟩ => ⟨S1x1024, .f32⟩
  | .local _ .vmem, ⟨44, _⟩ => ⟨S1x1024, .f32⟩
  | .local _ .vmem, ⟨45, _⟩ => ⟨S1x1024, .f32⟩
  | .local _ .vmem, ⟨46, _⟩ => ⟨S1x1024, .f32⟩
  | .local _ .vmem, ⟨47, _⟩ => ⟨S1x1024, .f32⟩
  | .local _ .vmem, ⟨48, _⟩ => ⟨S1x1024, .f32⟩
  | .local _ .vmem, ⟨49, _⟩ => ⟨S512x1024, .f32⟩
  | .local _ .vmem, ⟨50, _⟩ => ⟨S512x1024, .f32⟩
  | .local _ .vmem, ⟨51, _⟩ => ⟨S512x1024, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_scratch0 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc2_stg5_0 : Ref sig .tc := ⟨.vmem, 36, rfl⟩
abbrev cc2_stg5_1 : Ref sig .tc := ⟨.vmem, 37, rfl⟩
abbrev cc2_scratch0 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg2_1 : Ref sig .tc := ⟨.vmem, 44, rfl⟩
abbrev cc3_stg3_0 : Ref sig .tc := ⟨.vmem, 45, rfl⟩
abbrev cc3_stg3_1 : Ref sig .tc := ⟨.vmem, 46, rfl⟩
abbrev cc3_stg4_0 : Ref sig .tc := ⟨.vmem, 47, rfl⟩
abbrev cc3_stg4_1 : Ref sig .tc := ⟨.vmem, 48, rfl⟩
abbrev cc3_stg5_0 : Ref sig .tc := ⟨.vmem, 49, rfl⟩
abbrev cc3_stg5_1 : Ref sig .tc := ⟨.vmem, 50, rfl⟩
abbrev cc3_scratch0 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem3_1 : DmaSem sig := 43
abbrev cc3_sem4_0 : DmaSem sig := 44
abbrev cc3_sem4_1 : DmaSem sig := 45
abbrev cc3_sem5_0 : DmaSem sig := 46
abbrev cc3_sem5_1 : DmaSem sig := 47

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_10 : BitVec 32 := 0#32
  let v19 : BitVec 1 := Scalar.cmpi .ne v18 c0_i32_10
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_10 : BitVec 32 := 0#32
  let v19 : BitVec 1 := Scalar.cmpi .ne v18 c0_i32_10
  v19

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨2, ![4, 4], ![false, false]⟩

def k3_cond2 (i : grid3.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_10 : BitVec 32 := 0#32
  let v19 : BitVec 1 := Scalar.cmpi .ne v18 c0_i32_10
  v19

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1024x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S512x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

class Facts₀ : Prop where
  transposes_S32x4096_S4096x32_1_0 : S32x4096.Transposes [1, 0] S4096x32
  bcast_S32_S1x32_1 : S32.BroadcastsInDim S1x32 (![1] : Fin 1 → Fin S1x32.rank)
  bcast_S1x32_S4x32_0_1 : S1x32.BroadcastsInDim S4x32 (![0, 1] : Fin 2 → Fin S4x32.rank)
  bcast_S_S4x32 : S_.BroadcastsInDim S4x32 (![] : Fin 0 → Fin S4x32.rank)
  transposes_S32x32_S32x32_1_0 : S32x32.Transposes [1, 0] S32x32
  transposes_S4096x32_S32x4096_1_0 : S4096x32.Transposes [1, 0] S32x4096
  bcast_S4096_S1x4096_1 : S4096.BroadcastsInDim S1x4096 (![1] : Fin 1 → Fin S1x4096.rank)
  bcast_S1x4096_S4x4096_0_1 : S1x4096.BroadcastsInDim S4x4096 (![0, 1] : Fin 2 → Fin S4x4096.rank)
  slices_S4x4096_S1x4096_0_0 : S4x4096.Slices ![0, 0] S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  slices_S4x4096_S1x4096_1_0 : S4x4096.Slices ![1, 0] S1x4096
  slices_S4x4096_S1x4096_2_0 : S4x4096.Slices ![2, 0] S1x4096
  slices_S4x4096_S1x4096_3_0 : S4x4096.Slices ![3, 0] S1x4096
  concatenates_S512x4096_S512x4096_S512x4096_S512x4096_S2048x4096_d0 : Shape.Concatenates [S512x4096, S512x4096, S512x4096, S512x4096] S2048x4096 0
  dot_S4x4096_S4096x32_S4x32_1_0_0_1_n_n_wf : DotDims.WF S4x4096 S4096x32 S4x32 [1] [0] [0] [1] [] []
  dot_S4x32_S32x32_S4x32_1_0_0_1_n_n_wf : DotDims.WF S4x32 S32x32 S4x32 [1] [0] [0] [1] [] []
  dot_S4x32_S32x4096_S4x4096_1_0_0_1_n_n_wf : DotDims.WF S4x32 S32x4096 S4x4096 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x4096.size a
  hwx0_0 : ∀ i : grid0.Coords, EltTy.bits .f32 = 32 ∨ (Rect.block (s := S512x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x4096.size a
  hwx0_5 : ∀ i : grid0.Coords, EltTy.bits .f32 = 32 ∨ (Rect.block (s := S512x4096) S512x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S512x4096.size a
  hwx1_0 : ∀ i : grid1.Coords, EltTy.bits .f32 = 32 ∨ (Rect.block (s := S512x4096) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x4096.size a
  hwx1_3 : ∀ i : grid1.Coords, EltTy.bits .f32 = 32 ∨ (Rect.block (s := S1x4096) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x4096.size a
  hwx1_4 : ∀ i : grid1.Coords, EltTy.bits .f32 = 32 ∨ (Rect.block (s := S1x4096) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S512x4096.size a
  hwx1_5 : ∀ i : grid1.Coords, EltTy.bits .f32 = 32 ∨ (Rect.block (s := S512x4096) S512x1024.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S512x4096.size a
  hwx2_0 : ∀ i : grid2.Coords, EltTy.bits .f32 = 32 ∨ (Rect.block (s := S512x4096) S512x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .f32 = 32 ∨ (Rect.block (s := S4096x4096) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x4096.size a
  hwx2_3 : ∀ i : grid2.Coords, EltTy.bits .f32 = 32 ∨ (Rect.block (s := S1x4096) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x4096.size a
  hwx2_4 : ∀ i : grid2.Coords, EltTy.bits .f32 = 32 ∨ (Rect.block (s := S1x4096) S1x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x1024.size a ≤ S512x4096.size a
  hwx2_5 : ∀ i : grid2.Coords, EltTy.bits .f32 = 32 ∨ (Rect.block (s := S512x4096) S512x1024.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S512x4096.size a
  hwx3_0 : ∀ i : grid3.Coords, EltTy.bits .f32 = 32 ∨ (Rect.block (s := S512x4096) S512x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S4096x4096.size a
  hwx3_1 : ∀ i : grid3.Coords, EltTy.bits .f32 = 32 ∨ (Rect.block (s := S4096x4096) S1024x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x4096.size a
  hwx3_2 : ∀ i : grid3.Coords, EltTy.bits .f32 = 32 ∨ (Rect.block (s := S1x4096) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x4096.size a
  hwx3_3 : ∀ i : grid3.Coords, EltTy.bits .f32 = 32 ∨ (Rect.block (s := S1x4096) S1x1024.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x4096.size a
  hwx3_4 : ∀ i : grid3.Coords, EltTy.bits .f32 = 32 ∨ (Rect.block (s := S1x4096) S1x1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S512x1024.size a ≤ S512x4096.size a
  hwx3_5 : ∀ i : grid3.Coords, EltTy.bits .f32 = 32 ∨ (Rect.block (s := S512x4096) S512x1024.size (cc3_transform_5 i) (hinb3_5 i)).WholeWords (EltTy.packing .f32)

variable [Facts₀]

def dot_S4x4096_S4096x32_S4x32_1_0_0_1_n_n : DotDims S4x4096 S4096x32 S4x32 where
  lhsContracting := [1]
  rhsContracting := [0]
  lhsNonContracting := [0]
  rhsNonContracting := [1]
  lhsBatch := []
  rhsBatch := []
  wf := dot_S4x4096_S4096x32_S4x32_1_0_0_1_n_n_wf
def dot_S4x32_S32x32_S4x32_1_0_0_1_n_n : DotDims S4x32 S32x32 S4x32 where
  lhsContracting := [1]
  rhsContracting := [0]
  lhsNonContracting := [0]
  rhsNonContracting := [1]
  lhsBatch := []
  rhsBatch := []
  wf := dot_S4x32_S32x32_S4x32_1_0_0_1_n_n_wf
def dot_S4x32_S32x4096_S4x4096_1_0_0_1_n_n : DotDims S4x32 S32x4096 S4x4096 where
  lhsContracting := [1]
  rhsContracting := [0]
  lhsNonContracting := [0]
  rhsNonContracting := [1]
  lhsBatch := []
  rhsBatch := []
  wf := dot_S4x32_S32x4096_S4x4096_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v24) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v28) S512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_arg0) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v31) S1x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v32) S512x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

abbrev win3_0 : Pipeline.Window sig grid3 :=
  Pipeline.Window.ofSpec (Memref.whole main_arg0) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v33) S1x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v34) S1x1024.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v35) S1x1024.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v36) S512x1024.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

class Facts : Prop extends Facts₀ where

variable [Facts]
-- ==== ReferenceIdeal.lean ====
abbrev S512x4096 : Shape := ⟨2, ![512, 4096]⟩
abbrev S4x32 : Shape := ⟨2, ![4, 32]⟩
abbrev S4x4096 : Shape := ⟨2, ![4, 4096]⟩
abbrev S4096x4096 : Shape := ⟨2, ![4096, 4096]⟩
abbrev S32x4096 : Shape := ⟨2, ![32, 4096]⟩
abbrev S32 : Shape := ⟨1, ![32]⟩
abbrev S32x32 : Shape := ⟨2, ![32, 32]⟩
abbrev S4096x32 : Shape := ⟨2, ![4096, 32]⟩
abbrev S4096 : Shape := ⟨1, ![4096]⟩
abbrev S1x32 : Shape := ⟨2, ![1, 32]⟩
abbrev S_ : Shape := ⟨0, ![]⟩
abbrev S1x4096 : Shape := ⟨2, ![1, 4096]⟩
abbrev S1x512x1x4096 : Shape := ⟨4, ![1, 512, 1, 4096]⟩
abbrev S4x512x1x4096 : Shape := ⟨4, ![4, 512, 1, 4096]⟩
abbrev S2048x4096 : Shape := ⟨2, ![2048, 4096]⟩
abbrev S4x512x4096 : Shape := ⟨3, ![4, 512, 4096]⟩

abbrev nBuf : Space → Nat
  | .hbm => 50
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S4x32, .f32⟩
  | .hbm, ⟨2, _⟩ => ⟨S4x4096, .f32⟩
  | .hbm, ⟨3, _⟩ => ⟨S4x4096, .f32⟩
  | .hbm, ⟨4, _⟩ => ⟨S4x4096, .f32⟩
  | .hbm, ⟨5, _⟩ => ⟨S4096x4096, .f32⟩
  | .hbm, ⟨6, _⟩ => ⟨S32x4096, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S4096x32, .f32⟩
  | .hbm, ⟨11, _⟩ => ⟨S4096, .f32⟩
  | .hbm, ⟨12, _⟩ => ⟨S4096x32, .f32⟩
  | .hbm, ⟨13, _⟩ => ⟨S4x32, .f32⟩
  | .hbm, ⟨14, _⟩ => ⟨S1x32, .f32⟩
  | .hbm, ⟨15, _⟩ => ⟨S4x32, .f32⟩
  | .hbm, ⟨16, _⟩ => ⟨S4x32, .f32⟩
  | .hbm, ⟨17, _⟩ => ⟨S_, .f32⟩
  | .hbm, ⟨18, _⟩ => ⟨S4x32, .f32⟩
  | .hbm, ⟨19, _⟩ => ⟨S4x32, .f32⟩
  | .hbm, ⟨20, _⟩ => ⟨S32x32, .f32⟩
  | .hbm, ⟨21, _⟩ => ⟨S4x32, .f32⟩
  | .hbm, ⟨22, _⟩ => ⟨S1x32, .f32⟩
  | .hbm, ⟨23, _⟩ => ⟨S4x32, .f32⟩
  | .hbm, ⟨24, _⟩ => ⟨S4x32, .f32⟩
  | .hbm, ⟨25, _⟩ => ⟨S_, .f32⟩
  | .hbm, ⟨26, _⟩ => ⟨S4x32, .f32⟩
  | .hbm, ⟨27, _⟩ => ⟨S4x32, .f32⟩
  | .hbm, ⟨28, _⟩ => ⟨S4x32, .f32⟩
  | .hbm, ⟨29, _⟩ => ⟨S4x32, .f32⟩
  | .hbm, ⟨30, _⟩ => ⟨S4x32, .f32⟩
  | .hbm, ⟨31, _⟩ => ⟨S32x4096, .f32⟩
  | .hbm, ⟨32, _⟩ => ⟨S4x4096, .f32⟩
  | .hbm, ⟨33, _⟩ => ⟨S1x4096, .f32⟩
  | .hbm, ⟨34, _⟩ => ⟨S4x4096, .f32⟩
  | .hbm, ⟨35, _⟩ => ⟨S4x4096, .f32⟩
  | .hbm, ⟨36, _⟩ => ⟨S1x512x1x4096, .f32⟩
  | .hbm, ⟨37, _⟩ => ⟨S4x512x1x4096, .f32⟩
  | .hbm, ⟨38, _⟩ => ⟨S2048x4096, .f32⟩
  | .hbm, ⟨39, _⟩ => ⟨S4x512x4096, .f32⟩
  | .hbm, ⟨40, _⟩ => ⟨S2048x4096, .f32⟩
  | .hbm, ⟨41, _⟩ => ⟨S4x512x4096, .f32⟩
  | .hbm, ⟨42, _⟩ => ⟨S2048x4096, .f32⟩
  | .hbm, ⟨43, _⟩ => ⟨S4x512x4096, .f32⟩
  | .hbm, ⟨44, _⟩ => ⟨S2048x4096, .f32⟩
  | .hbm, ⟨45, _⟩ => ⟨S2048x4096, .f32⟩
  | .hbm, ⟨46, _⟩ => ⟨S4096x4096, .f32⟩
  | .hbm, ⟨47, _⟩ => ⟨S2048x4096, .f32⟩
  | .hbm, ⟨48, _⟩ => ⟨S2048x4096, .f32⟩
  | .hbm, ⟨49, _⟩ => ⟨S2048x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  transposes_S32x4096_S4096x32_1_0 : S32x4096.Transposes [1, 0] S4096x32
  bcast_S32_S1x32_1 : S32.BroadcastsInDim S1x32 (![1] : Fin 1 → Fin S1x32.rank)
  bcast_S1x32_S4x32_0_1 : S1x32.BroadcastsInDim S4x32 (![0, 1] : Fin 2 → Fin S4x32.rank)
  bcast_S_S4x32 : S_.BroadcastsInDim S4x32 (![] : Fin 0 → Fin S4x32.rank)
  transposes_S32x32_S32x32_1_0 : S32x32.Transposes [1, 0] S32x32
  transposes_S4096x32_S32x4096_1_0 : S4096x32.Transposes [1, 0] S32x4096
  bcast_S4096_S1x4096_1 : S4096.BroadcastsInDim S1x4096 (![1] : Fin 1 → Fin S1x4096.rank)
  bcast_S1x4096_S4x4096_0_1 : S1x4096.BroadcastsInDim S4x4096 (![0, 1] : Fin 2 → Fin S4x4096.rank)
  shapeCasts_S512x4096_S1x512x1x4096 : S512x4096.ShapeCasts S1x512x1x4096
  bcast_S1x512x1x4096_S4x512x1x4096_0_1_2_3 : S1x512x1x4096.BroadcastsInDim S4x512x1x4096 (![0, 1, 2, 3] : Fin 4 → Fin S4x512x1x4096.rank)
  shapeCasts_S4x512x1x4096_S2048x4096 : S4x512x1x4096.ShapeCasts S2048x4096
  bcast_S4x4096_S4x512x4096_0_2 : S4x4096.BroadcastsInDim S4x512x4096 (![0, 2] : Fin 2 → Fin S4x512x4096.rank)
  shapeCasts_S4x512x4096_S2048x4096 : S4x512x4096.ShapeCasts S2048x4096
  transposes_S4096x4096_S4096x4096_1_0 : S4096x4096.Transposes [1, 0] S4096x4096
  dot_S4x4096_S4096x32_S4x32_1_0_0_1_n_n_wf : DotDims.WF S4x4096 S4096x32 S4x32 [1] [0] [0] [1] [] []
  dot_S4x32_S32x32_S4x32_1_0_0_1_n_n_wf : DotDims.WF S4x32 S32x32 S4x32 [1] [0] [0] [1] [] []
  dot_S4x32_S32x4096_S4x4096_1_0_0_1_n_n_wf : DotDims.WF S4x32 S32x4096 S4x4096 [1] [0] [0] [1] [] []
  dot_S2048x4096_S4096x4096_S2048x4096_1_0_0_1_n_n_wf : DotDims.WF S2048x4096 S4096x4096 S2048x4096 [1] [0] [0] [1] [] []

variable [Facts₀]

def dot_S4x4096_S4096x32_S4x32_1_0_0_1_n_n : DotDims S4x4096 S4096x32 S4x32 where
  lhsContracting := [1]
  rhsContracting := [0]
  lhsNonContracting := [0]
  rhsNonContracting := [1]
  lhsBatch := []
  rhsBatch := []
  wf := dot_S4x4096_S4096x32_S4x32_1_0_0_1_n_n_wf
def dot_S4x32_S32x32_S4x32_1_0_0_1_n_n : DotDims S4x32 S32x32 S4x32 where
  lhsContracting := [1]
  rhsContracting := [0]
  lhsNonContracting := [0]
  rhsNonContracting := [1]
  lhsBatch := []
  rhsBatch := []
  wf := dot_S4x32_S32x32_S4x32_1_0_0_1_n_n_wf
def dot_S4x32_S32x4096_S4x4096_1_0_0_1_n_n : DotDims S4x32 S32x4096 S4x4096 where
  lhsContracting := [1]
  rhsContracting := [0]
  lhsNonContracting := [0]
  rhsNonContracting := [1]
  lhsBatch := []
  rhsBatch := []
  wf := dot_S4x32_S32x4096_S4x4096_1_0_0_1_n_n_wf
def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf

class Facts : Prop extends Facts₀ where

variable [Facts]
-- ==== Proof.FcIdeal.Kernel.Conds.lean ====
import proofs.«129729_j34514357190659_1_alg».proof.Proof.Gen.KernelIdeal.Launch
import proofs.«129729_j34514357190659_1_alg».proof.Proof.Gen.KernelIdeal.Skeleton
import proofs.«129729_j34514357190659_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

end Cert.KernelIdeal.Fc

end
-- ==== Proof.FcIdeal.Kernel.RunA.lean ====
import proofs.«129729_j34514357190659_1_alg».proof.Proof.FcIdeal.Kernel.Conds

set_option maxRecDepth 16384

noncomputable section

namespace Cert.KernelIdeal.Fc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : cond0_0 i) (hc1 : ¬cond0_1 i)
    (x0 : Vec F S512x1024 .f32) (x1 : Vec F S1024x1024 .f32) (x2 : Vec F S1x1024 .f32) :
    { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg8.view.loc (c : Thread nD τ) ↦[arg8.view.set]{fullShare} arg8.view.writes (Elt F) f LS0)) -∗ K ⟨⟩))
          ⊢ wp frame (wpE (defs₀ (F := F)) Variants.none c none) E (cc0__fc_kernel i arg2 harg2 arg3 harg3 arg4 harg4 arg5 harg5 arg6 harg6 arg7 harg7 arg8 harg8) K } := by
  refine ⟨?_, fun E K => ?run⟩
  case run =>
    simp only [cc0__fc_kernel_eq_skeleton]; unfold cc0__fc_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fc

end
-- ==== Proof.FcIdeal.Kernel.RunB.lean ====
import proofs.«129729_j34514357190659_1_alg».proof.Proof.FcIdeal.Kernel.Conds

set_option maxRecDepth 16384

noncomputable section

namespace Cert.KernelIdeal.Fc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : ¬cond0_1 i)
    (x0 : Vec F S512x1024 .f32) (x1 : Vec F S1024x1024 .f32) (x2 : Vec F S1x1024 .f32) (xs0 : Vec F S512x1024 .f32) :
    { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg8 fullShare xs0
            ∗ (iprop(owns (c : Thread nD τ) arg2 fullShare x0 ∗ owns (c : Thread nD τ) arg3 fullShare x1 ∗ owns (c : Thread nD τ) arg4 fullShare x2
                ∗ (∃ f, arg8.view.loc (c : Thread nD τ) ↦[arg8.view.set]{fullShare} arg8.view.writes (Elt F) f LS0)) -∗ K ⟨⟩))
          ⊢ wp frame (wpE (defs₀ (F := F)) Variants.none c none) E (cc0__fc_kernel i arg2 harg2 arg3 harg3 arg4 harg4 arg5 harg5 arg6 harg6 arg7 harg7 arg8 harg8) K } := by
  refine ⟨?_, fun E K => ?run⟩
  case run =>
    simp only [cc0__fc_kernel_eq_skeleton]; unfold cc0__fc_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2
    obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fc

end
-- ==== Proof.FcIdeal.Kernel.RunC.lean ====
import proofs.«129729_j34514357190659_1_alg».proof.Proof.FcIdeal.Kernel.Conds

set_option maxRecDepth 16384

noncomputable section

namespace Cert.KernelIdeal.Fc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i)
    (x0 : Vec F S512x1024 .f32) (x1 : Vec F S1024x1024 .f32) (x2 : Vec F S1x1024 .f32) (x3 : Vec F S1x1024 .f32) (x4 : Vec F S1x1024 .f32) (xs0 : Vec F S512x1024 .f32) :
    Σ' (L5 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)) -∗ K ⟨⟩))
          ⊢ wp frame (wpE (defs₀ (F := F)) Variants.none c none) E (cc0__fc_kernel i arg2 harg2 arg3 harg3 arg4 harg4 arg5 harg5 arg6 harg6 arg7 harg7 arg8 harg8) K } := by
  refine ⟨?_, ?_, fun E K => ?run⟩
  case run =>
    simp only [cc0__fc_kernel_eq_skeleton]; unfold cc0__fc_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Fc

end
-- ==== Proof.FcIdeal.Kernel.Stores.lean ====
import proofs.«129729_j34514357190659_1_alg».proof.Proof.FcIdeal.Kernel.RunA
import proofs.«129729_j34514357190659_1_alg».proof.Proof.FcIdeal.Kernel.RunB
import proofs.«129729_j34514357190659_1_alg».proof.Proof.FcIdeal.Kernel.RunC
import Idealize.ShloMosaic.Lib.Pipeline.Value

set_option maxRecDepth 16384

noncomputable section

namespace Cert.KernelIdeal.Fc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem k0_hzero : (![0, 0] : Fin 2 → Nat) = fun _ => 0 := funext fun a => by fin_cases a <;> rfl

section
variable (c : Dev nD) (i : grid0.Coords)
  (arg2 : Memref sig .tc .vmem S512x1024 .f32)
  (harg2 : arg2.IsWhole)
  (arg3 : Memref sig .tc .vmem S1024x1024 .f32)
  (harg3 : arg3.IsWhole)
  (arg4 : Memref sig .tc .vmem S1x1024 .f32)
  (harg4 : arg4.IsWhole)
  (arg5 : Memref sig .tc .vmem S1x1024 .f32)
  (harg5 : arg5.IsWhole)
  (arg6 : Memref sig .tc .vmem S1x1024 .f32)
  (harg6 : arg6.IsWhole)
  (arg7 : Memref sig .tc .vmem S512x1024 .f32)
  (harg7 : arg7.IsWhole)
  (arg8 : Memref sig .tc .vmem S512x1024 .f32)
  (harg8 : arg8.IsWhole)

/-- Each case's stores cover the buffer they go into through its whole rectangle, so what they leave is the payload. -/
theorem leaves0_A (hc0 : cond0_0 i) (hc1 : ¬cond0_1 i) (x0 : Vec F S512x1024 .f32) (x1 : Vec F S1024x1024 .f32) (x2 : Vec F S1x1024 .f32) (f) :
    arg8.view.read (Elt F) (arg8.view.writes (Elt F) f (kernelRun0_A c i arg2 harg2 arg3 harg3 arg4 harg4 arg5 harg5 arg6 harg6 arg7 harg7 arg8 harg8 hc0 hc1 x0 x1 x2).1) = k0_pay2 x0 x2 x1 (k0_pay1 (F := F)) := by
  rw [View.read_writes_eq_canon _ _ _ (View.cover_of_tiledL (kernelRun0_A c i arg2 harg2 arg3 harg3 arg4 harg4 arg5 harg5 arg6 harg6 arg7 harg7 arg8 harg8 hc0 hc1 x0 x1 x2).1 S512x1024.size (by sl_kernel_rfl))]
  unfold kernelRun0_A
  dsimp only
  sl_unfold_words
  rw [View.canon_cons_unit_zero (S := S512x1024) k0_hzero, View.readCov_unit_zero (S := S512x1024) _ k0_hzero]
  simp only [View.readAt_eq_ld, harg2.read_unread, harg3.read_unread, harg4.read_unread,
    View.ld_unit_zero (S := S512x1024) k0_hzero, View.ld_unit_zero (S := S1024x1024) k0_hzero, View.ld_unit_zero (S := S1x1024) k0_hzero]

theorem leaves0_B (hc0 : ¬cond0_0 i) (hc1 : ¬cond0_1 i) (x0 : Vec F S512x1024 .f32) (x1 : Vec F S1024x1024 .f32) (x2 : Vec F S1x1024 .f32) (xs0 : Vec F S512x1024 .f32) (f) :
    arg8.view.read (Elt F) (arg8.view.writes (Elt F) f (kernelRun0_B c i arg2 harg2 arg3 harg3 arg4 harg4 arg5 harg5 arg6 harg6 arg7 harg7 arg8 harg8 hc0 hc1 x0 x1 x2 xs0).1) = k0_pay2 x0 x2 x1 xs0 := by
  rw [View.read_writes_eq_canon _ _ _ (View.cover_of_tiledL (kernelRun0_B c i arg2 harg2 arg3 harg3 arg4 harg4 arg5 harg5 arg6 harg6 arg7 harg7 arg8 harg8 hc0 hc1 x0 x1 x2 xs0).1 S512x1024.size (by sl_kernel_rfl))]
  unfold kernelRun0_B
  dsimp only
  sl_unfold_words
  rw [View.canon_unit_zero (S := S512x1024) k0_hzero]
  simp only [View.readAt_eq_ld, harg2.read_unread, harg3.read_unread, harg4.read_unread, harg8.read_unread,
    View.ld_unit_zero (S := S512x1024) k0_hzero, View.ld_unit_zero (S := S1024x1024) k0_hzero, View.ld_unit_zero (S := S1x1024) k0_hzero]

theorem leaves0_C (hc0 : ¬cond0_0 i) (hc1 : cond0_1 i) (x0 : Vec F S512x1024 .f32) (x1 : Vec F S1024x1024 .f32) (x2 : Vec F S1x1024 .f32) (x3 x4 : Vec F S1x1024 .f32) (xs0 : Vec F S512x1024 .f32) (f) :
    arg8.view.read (Elt F) (arg8.view.writes (Elt F) f (kernelRun0_C c i arg2 harg2 arg3 harg3 arg4 harg4 arg5 harg5 arg6 harg6 arg7 harg7 arg8 harg8 hc0 hc1 x0 x1 x2 x3 x4 xs0).2.1) = k0_pay2 x0 x2 x1 xs0 := by
  rw [View.read_writes_eq_canon _ _ _ (View.cover_of_tiledL (kernelRun0_C c i arg2 harg2 arg3 harg3 arg4 harg4 arg5 harg5 arg6 harg6 arg7 harg7 arg8 harg8 hc0 hc1 x0 x1 x2 x3 x4 xs0).2.1 S512x1024.size (by sl_kernel_rfl))]
  unfold kernelRun0_C
  dsimp only
  sl_unfold_words
  rw [View.canon_unit_zero (S := S512x1024) k0_hzero]
  simp only [View.readAt_eq_ld, harg2.read_unread, harg3.read_unread, harg4.read_unread, harg8.read_unread,
    View.ld_unit_zero (S := S512x1024) k0_hzero, View.ld_unit_zero (S := S1024x1024) k0_hzero, View.ld_unit_zero (S := S1x1024) k0_hzero]

theorem leaves0_C_out (hc0 : ¬cond0_0 i) (hc1 : cond0_1 i) (x0 : Vec F S512x1024 .f32) (x1 : Vec F S1024x1024 .f32) (x2 : Vec F S1x1024 .f32) (x3 x4 : Vec F S1x1024 .f32) (xs0 : Vec F S512x1024 .f32) (f) :
    arg7.view.read (Elt F) (arg7.view.writes (Elt F) f (kernelRun0_C c i arg2 harg2 arg3 harg3 arg4 harg4 arg5 harg5 arg6 harg6 arg7 harg7 arg8 harg8 hc0 hc1 x0 x1 x2 x3 x4 xs0).1) = k0_pay3 x3 x4 (k0_pay2 x0 x2 x1 xs0) := by
  rw [View.read_writes_eq_canon _ _ _ (View.cover_of_tiledL (kernelRun0_C c i arg2 harg2 arg3 harg3 arg4 harg4 arg5 harg5 arg6 harg6 arg7 harg7 arg8 harg8 hc0 hc1 x0 x1 x2 x3 x4 xs0).1 S512x1024.size (by sl_kernel_rfl))]
  unfold kernelRun0_C
  dsimp only
  sl_unfold_words
  rw [View.canon_unit_zero (S := S512x1024) k0_hzero]
  simp only [View.readAt_eq_ld, harg2.read_unread, harg3.read_unread, harg4.read_unread, harg5.read_unread, harg6.read_unread, harg8.read_unread,
    View.readCov_unit_zero (S := S512x1024) _ k0_hzero,
    View.ld_unit_zero (S := S512x1024) k0_hzero, View.ld_unit_zero (S := S1024x1024) k0_hzero, View.ld_unit_zero (S := S1x1024) k0_hzero]

end

end Cert.KernelIdeal.Fc

end
-- ==== Proof.FcIdeal.Kernel.Body.lean ====
import proofs.«129729_j34514357190659_1_alg».proof.Proof.FcIdeal.Kernel.Stores

set_option maxRecDepth 16384

noncomputable section

namespace Cert.KernelIdeal.Fc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator after a point: its tile's product added onto zero at a first tile, onto the point before's elsewhere. -/
def accOf (n : ℕ) (x0 : Vec F S512x1024 .f32) (x1 : Vec F S1024x1024 .f32) (x2 : Vec F S1x1024 .f32) (prev : Vec F S512x1024 .f32) : Vec F S512x1024 .f32 :=
  k0_pay2 x0 x2 x1 (if n % 4 = 0 then k0_pay1 else prev)

/-- The accumulator after position n of a launch whose activations, weights and scaling row are x, w, a. -/
def accG (x : Vec F S512x4096 .f32) (w : Vec F S4096x4096 .f32) (a : Vec F S1x4096 .f32) : (n : ℕ) → n < cfg0.N → Vec F S512x1024 .f32
  | 0, hn => accOf 0 (((cfg0.win 0).blk ⟨0, hn⟩).view.read (Elt F) x) (((cfg0.win 1).blk ⟨0, hn⟩).view.read (Elt F) w) (((cfg0.win 2).blk ⟨0, hn⟩).view.read (Elt F) a) k0_pay1
  | n + 1, hn => accOf (n + 1) (((cfg0.win 0).blk ⟨n + 1, hn⟩).view.read (Elt F) x) (((cfg0.win 1).blk ⟨n + 1, hn⟩).view.read (Elt F) w) (((cfg0.win 2).blk ⟨n + 1, hn⟩).view.read (Elt F) a) (accG x w a n (Nat.lt_of_succ_lt hn))

theorem accG_eq (x : Vec F S512x4096 .f32) (w : Vec F S4096x4096 .f32) (a : Vec F S1x4096 .f32) (t : Fin cfg0.N) :
    accG x w a t.val t.isLt = accOf t.val (((cfg0.win 0).blk t).view.read (Elt F) x) (((cfg0.win 1).blk t).view.read (Elt F) w) (((cfg0.win 2).blk t).view.read (Elt F) a)
      (accG x w a (t.val - 1) (Nat.lt_of_le_of_lt (Nat.sub_le _ _) t.isLt)) := by
  obtain ⟨n, hn⟩ := t
  cases n with
  | zero => rfl
  | succ n => rfl

/-- The body at point t, on any whole buffers, in its three control cases at once: what it leaves where. -/
theorem body_core (c : Dev nD) (t : Fin cfg0.N) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole)
    (x0 : Vec F S512x1024 .f32) (x1 : Vec F S1024x1024 .f32) (x2 x3 x4 : Vec F S1x1024 .f32) (prev d5 : Vec F S512x1024 .f32) (E : Set ℕ) (K : PUnit → sProp 𝕄) :
    iprop((if t.val % 4 = 0 then iprop(∃ d, owns (c : Thread nD τ) arg8 fullShare d) else owns (c : Thread nD τ) arg8 fullShare prev)
        ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare d5
        ∗ (iprop(owns (c : Thread nD τ) arg8 fullShare (accOf t.val x0 x1 x2 prev)
            ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (if t.val % 4 = 3 then owns (c : Thread nD τ) arg7 fullShare (k0_pay3 x3 x4 (accOf t.val x0 x1 x2 prev)) else owns (c : Thread nD τ) arg7 fullShare d5)) -∗ K ⟨⟩))
      ⊢ wp frame (wpE (defs₀ (F := F)) Variants.none c none) E (cc0__fc_kernel (grid0.coords t) arg2 harg2 arg3 harg3 arg4 harg4 arg5 harg5 arg6 harg6 arg7 harg7 arg8 harg8) K := by
  unfold accOf
  by_cases h0 : t.val % 4 = 0
  · have h1 : ¬t.val % 4 = 3 := by omega
    simp only [if_pos h0, if_neg h1]
    iintro ⟨HS0, H0, H1, H2, H3, H4, H5, Hk⟩
    iapply ((kernelRun0_A c (grid0.coords t) arg2 harg2 arg3 harg3 arg4 harg4 arg5 harg5 arg6 harg6 arg7 harg7 arg8 harg8 ((hcond0_0 t).mpr h0) (fun h => h1 ((hcond0_1 t).mp h)) x0 x1 x2).2 E K)
    isplitl [H0]; · iexact H0
    isplitl [H1]; · iexact H1
    isplitl [H2]; · iexact H2
    isplitl [HS0]; · iexact HS0
    iintro ⟨H0, H1, H2, ⟨%es0, HS0⟩⟩
    iapply Hk
    isplitl [HS0]
    · unfold owns; iexists _; isplitr
      swap; · iexact HS0
      ipureintro; exact leaves0_A c (grid0.coords t) arg2 harg2 arg3 harg3 arg4 harg4 arg5 harg5 arg6 harg6 arg7 harg7 arg8 harg8 ((hcond0_0 t).mpr h0) (fun h => h1 ((hcond0_1 t).mp h)) x0 x1 x2 _
    isplitl [H0]; · iexact H0
    isplitl [H1]; · iexact H1
    isplitl [H2]; · iexact H2
    isplitl [H3]; · iexact H3
    isplitl [H4]; · iexact H4
    iexact H5
  · by_cases h1 : t.val % 4 = 3
    · simp only [if_neg h0, if_pos h1]
      iintro ⟨HS0, H0, H1, H2, H3, H4, H5, Hk⟩
      iapply ((kernelRun0_C c (grid0.coords t) arg2 harg2 arg3 harg3 arg4 harg4 arg5 harg5 arg6 harg6 arg7 harg7 arg8 harg8 (fun h => h0 ((hcond0_0 t).mp h)) ((hcond0_1 t).mpr h1) x0 x1 x2 x3 x4 prev).2.2 E K)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      iapply Hk
      isplitl [HS0]
      · unfold owns; iexists _; isplitr
        swap; · iexact HS0
        ipureintro; exact leaves0_C c (grid0.coords t) arg2 harg2 arg3 harg3 arg4 harg4 arg5 harg5 arg6 harg6 arg7 harg7 arg8 harg8 (fun h => h0 ((hcond0_0 t).mp h)) ((hcond0_1 t).mpr h1) x0 x1 x2 x3 x4 prev _
      isplitl [H0]; · iexact H0
      isplitl [H1]; · iexact H1
      isplitl [H2]; · iexact H2
      isplitl [H3]; · iexact H3
      isplitl [H4]; · iexact H4
      unfold owns; iexists _; isplitr
      swap; · iexact H5
      ipureintro; exact leaves0_C_out c (grid0.coords t) arg2 harg2 arg3 harg3 arg4 harg4 arg5 harg5 arg6 harg6 arg7 harg7 arg8 harg8 (fun h => h0 ((hcond0_0 t).mp h)) ((hcond0_1 t).mpr h1) x0 x1 x2 x3 x4 prev _
    · simp only [if_neg h0, if_neg h1]
      iintro ⟨HS0, H0, H1, H2, H3, H4, H5, Hk⟩
      iapply ((kernelRun0_B c (grid0.coords t) arg2 harg2 arg3 harg3 arg4 harg4 arg5 harg5 arg6 harg6 arg7 harg7 arg8 harg8 (fun h => h0 ((hcond0_0 t).mp h)) (fun h => h1 ((hcond0_1 t).mp h)) x0 x1 x2 prev).2 E K)
      isplitl [H0]; · iexact H0
      isplitl [H1]; · iexact H1
      isplitl [H2]; · iexact H2
      isplitl [HS0]; · iexact HS0
      iintro ⟨H0, H1, H2, ⟨%es0, HS0⟩⟩
      iapply Hk
      isplitl [HS0]
      · unfold owns; iexists _; isplitr
        swap; · iexact HS0
        ipureintro; exact leaves0_B c (grid0.coords t) arg2 harg2 arg3 harg3 arg4 harg4 arg5 harg5 arg6 harg6 arg7 harg7 arg8 harg8 (fun h => h0 ((hcond0_0 t).mp h)) (fun h => h1 ((hcond0_1 t).mp h)) x0 x1 x2 prev _
      isplitl [H0]; · iexact H0
      isplitl [H1]; · iexact H1
      isplitl [H2]; · iexact H2
      isplitl [H3]; · iexact H3
      isplitl [H4]; · iexact H4
      iexact H5

end Cert.KernelIdeal.Fc

end
-- ==== Proof.FcIdeal.Region0.Setup.lean ====
import proofs.«129729_j34514357190659_1_alg».proof.Proof.FcIdeal.Kernel.Body

set_option maxRecDepth 16384

noncomputable section

namespace Cert.KernelIdeal.Fc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

end

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel

theorem idle0_5 : ∀ t : Fin cfg0.N, ¬t.val % 4 = 3 → cfg0.idle 5 (grid0.coords t) = true ∧ (cfg0.win 5).flush t = false := by decide +kernel
theorem live0_5 : ∀ t : Fin cfg0.N, t.val % 4 = 3 → cfg0.idle 5 (grid0.coords t) = false := by decide +kernel

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .f32 := win0_5.stage (cfg0.slots t 5)
abbrev hs0_5 (t : Fin cfg0.N) : (ms0_5 t).IsWhole := hstage0_5 ((cfg0.slots t 5).cast nbuf0_5)

abbrev scM0_0 : Memref sig .tc .vmem S512x1024 .f32 := Memref.whole cc0_scratch0

theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Cert.KernelIdeal.Fc

end
-- ==== Proof.FcIdeal.Region0.Data.lean ====
import proofs.«129729_j34514357190659_1_alg».proof.Proof.FcIdeal.Region0.Setup

set_option maxRecDepth 16384

noncomputable section

namespace Cert.KernelIdeal.Fc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

abbrev acc0 (c : Dev nD) : (n : ℕ) → n < cfg0.N → Vec F S512x1024 .f32 :=
  accG (V c (Pipeline.arrRef spec0 0)) (V c (Pipeline.arrRef spec0 1)) (V c (Pipeline.arrRef spec0 2))

theorem acc0_eq (c : Dev nD) (t : Fin cfg0.N) :
    acc0 V c t.val t.isLt = accOf t.val (iblk0 V c 0 t) (iblk0 V c 1 t) (iblk0 V c 2 t) (acc0 V c (t.val - 1) (Nat.lt_of_le_of_lt (Nat.sub_le _ _) t.isLt)) :=
  accG_eq _ _ _ t

def PhiS0 (c : Dev nD) : (n : ℕ) → n ≤ cfg0.N → sProp 𝕄
  | 0, _ => Pipeline.ΦA spec0 c
  | n + 1, hn => iprop(iprop(owns (c : Thread nD τ) scM0_0 fullShare (acc0 V c n hn)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (acc0 V c n hn)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (acc0 V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay3 (iblk0 V c 3 t) (iblk0 V c 4 t) (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = k0_pay3 (iblk0 V c 3 t) (iblk0 V c 4 t) (acc0 V c t.val t.isLt) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl

end

end Cert.KernelIdeal.Fc

end
-- ==== Proof.FcIdeal.Region0.Body.lean ====
import proofs.«129729_j34514357190659_1_alg».proof.Proof.FcIdeal.Region0.Data

set_option maxRecDepth 16384

noncomputable section

namespace Cert.KernelIdeal.Fc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

/-- The invariant before point t names the accumulator's contents only where the point reads them. -/
theorem PhiS0_open (c : Dev nD) (t : Fin cfg0.N) :
    PhiS0 V c t.val (Nat.le_of_lt t.isLt) ⊢ iprop(iprop((if t.val % 4 = 0 then iprop(∃ d, owns (c : Thread nD τ) scM0_0 fullShare d) else owns (c : Thread nD τ) scM0_0 fullShare (acc0 V c (t.val - 1) (Nat.lt_of_le_of_lt (Nat.sub_le _ _) t.isLt)))
      ∗ Pipeline.scopedRestBut (Ix := Unit) (Name := ℕ) (U := UR sig nD τ) (Lvl := ℕ) (Val := Elt F) spec0 c [cc0_scratch0]) ∗ (∃ r, prngReg c r)) := by
  by_cases hz : t.val = 0
  · rw [PhiS0_zero V c _ _ hz, PhiA0_eq, if_pos (by rw [hz])]
  · rw [PhiS0_pos V c _ _ hz]
    by_cases h0 : t.val % 4 = 0
    · rw [if_pos h0]
      iintro ⟨⟨HS0, HR⟩, Hg⟩
      isplitl [HS0 HR]
      · isplitl [HS0]
        · iexists _; iexact HS0
        iexact HR
      iexact Hg
    · rw [if_neg h0]

theorem leaves0_5 (c : Dev nD) (t : Fin cfg0.N) (d) :
    (if t.val % 4 = 3 then owns (c : Thread nD τ) (ms0_5 t) fullShare (k0_pay3 (iblk0 V c 3 t) (iblk0 V c 4 t) (accOf t.val (iblk0 V c 0 t) (iblk0 V c 1 t) (iblk0 V c 2 t) (acc0 V c (t.val - 1) (Nat.lt_of_le_of_lt (Nat.sub_le _ _) t.isLt))))
      else owns (c : Thread nD τ) (ms0_5 t) fullShare ((dat0 V c).before 5 t d)) ⊢ (dat0 V c).leavesExact 5 t := by
  by_cases h3 : t.val % 4 = 3
  · rw [if_pos h3, show (dat0 V c).leavesExact 5 t = owns (c : Thread nD τ) (ms0_5 t) fullShare ((dat0 V c).after 5 t) from by
      unfold Dat.leavesExact; rw [live0_5 t h3], after0_5, acc0_eq V c t]
  · rw [if_neg h3, Dat.leavesExact_idle (dat0 V c) 5 t (idle0_5 t h3).1 (idle0_5 t h3).2]
    iintro H
    iexists _; iexact H

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ, acc0_eq V c t, PhiS0_castSucc V c t]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  iintro ⟨HΦ, Ho, ⟨%d0, H0⟩, ⟨%d1, H1⟩, ⟨%d2, H2⟩, ⟨%d3, H3⟩, ⟨%d4, H4⟩, ⟨%d5, H5⟩⟩
  ihave HΦ' := (PhiS0_open V c t) $$ HΦ
  icases HΦ' with ⟨⟨HS0, HR⟩, Hg⟩
  iapply (body_core c t (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk0 V c 0 t) (iblk0 V c 1 t) (iblk0 V c 2 t) (iblk0 V c 3 t) (iblk0 V c 4 t) (acc0 V c (t.val - 1) (Nat.lt_of_le_of_lt (Nat.sub_le _ _) t.isLt)) ((dat0 V c).before 5 t d5) Set.univ _)
  isplitl [HS0]; · iexact HS0
  isplitl [H0]; · iexact H0
  isplitl [H1]; · iexact H1
  isplitl [H2]; · iexact H2
  isplitl [H3]; · iexact H3
  isplitl [H4]; · iexact H4
  isplitl [H5]; · iexact H5
  iintro ⟨HS0, H0, H1, H2, H3, H4, H5⟩
  isplitl [HS0 HR Hg]
  · isplitl [HS0 HR]
    · isplitl [HS0]; · iexact HS0
      iexact HR
    iexact Hg
  isplitl [Ho]; · iexact Ho
  isplitl [H0]; · iexact H0
  isplitl [H1]; · iexact H1
  isplitl [H2]; · iexact H2
  isplitl [H3]; · iexact H3
  isplitl [H4]; · iexact H4
  iapply (leaves0_5 V c t d5); iexact H5

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ Pipeline.ΦA spec0 c :=
  Phi_out0 V c _ (by rw [Fin.val_last]; have : cfg0.N = 16 := N_0; omega)

end

end Cert.KernelIdeal.Fc

end
-- ==== Proof.FcIdeal.Region1.Setup.lean ====
import proofs.«129729_j34514357190659_1_alg».proof.Proof.FcIdeal.Kernel.Body

set_option maxRecDepth 16384

noncomputable section

namespace Cert.KernelIdeal.Fc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel

theorem idle1_5 : ∀ t : Fin cfg1.N, ¬t.val % 4 = 3 → cfg1.idle 5 (grid1.coords t) = true ∧ (cfg1.win 5).flush t = false := by decide +kernel
theorem live1_5 : ∀ t : Fin cfg1.N, t.val % 4 = 3 → cfg1.idle 5 (grid1.coords t) = false := by decide +kernel

abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1024 .f32 := win1_5.stage (cfg1.slots t 5)
abbrev hs1_5 (t : Fin cfg1.N) : (ms1_5 t).IsWhole := hstage1_5 ((cfg1.slots t 5).cast nbuf1_5)

abbrev scM1_0 : Memref sig .tc .vmem S512x1024 .f32 := Memref.whole cc1_scratch0

theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.KernelIdeal.Fc

end
-- ==== Proof.FcIdeal.Region1.Data.lean ====
import proofs.«129729_j34514357190659_1_alg».proof.Proof.FcIdeal.Region1.Setup

set_option maxRecDepth 16384

noncomputable section

namespace Cert.KernelIdeal.Fc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

abbrev acc1 (c : Dev nD) : (n : ℕ) → n < cfg1.N → Vec F S512x1024 .f32 :=
  accG (V c (Pipeline.arrRef spec1 0)) (V c (Pipeline.arrRef spec1 1)) (V c (Pipeline.arrRef spec1 2))

theorem acc1_eq (c : Dev nD) (t : Fin cfg1.N) :
    acc1 V c t.val t.isLt = accOf t.val (iblk1 V c 0 t) (iblk1 V c 1 t) (iblk1 V c 2 t) (acc1 V c (t.val - 1) (Nat.lt_of_le_of_lt (Nat.sub_le _ _) t.isLt)) :=
  accG_eq _ _ _ t

def PhiS1 (c : Dev nD) : (n : ℕ) → n ≤ cfg1.N → sProp 𝕄
  | 0, _ => Pipeline.ΦA spec1 c
  | n + 1, hn => iprop(iprop(owns (c : Thread nD τ) scM1_0 fullShare (acc1 V c n hn)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare (acc1 V c n hn)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k0_pay3 (iblk1 V c 3 t) (iblk1 V c 4 t) (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = k0_pay3 (iblk1 V c 3 t) (iblk1 V c 4 t) (acc1 V c t.val t.isLt) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl

end

end Cert.KernelIdeal.Fc

end
-- ==== Proof.FcIdeal.Region1.Body.lean ====
import proofs.«129729_j34514357190659_1_alg».proof.Proof.FcIdeal.Region1.Data

set_option maxRecDepth 16384

noncomputable section

namespace Cert.KernelIdeal.Fc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

/-- The invariant before point t names the accumulator's contents only where the point reads them. -/
theorem PhiS1_open (c : Dev nD) (t : Fin cfg1.N) :
    PhiS1 V c t.val (Nat.le_of_lt t.isLt) ⊢ iprop(iprop((if t.val % 4 = 0 then iprop(∃ d, owns (c : Thread nD τ) scM1_0 fullShare d) else owns (c : Thread nD τ) scM1_0 fullShare (acc1 V c (t.val - 1) (Nat.lt_of_le_of_lt (Nat.sub_le _ _) t.isLt)))
      ∗ Pipeline.scopedRestBut (Ix := Unit) (Name := ℕ) (U := UR sig nD τ) (Lvl := ℕ) (Val := Elt F) spec1 c [cc1_scratch0]) ∗ (∃ r, prngReg c r)) := by
  by_cases hz : t.val = 0
  · rw [PhiS1_zero V c _ _ hz, PhiA1_eq, if_pos (by rw [hz])]
  · rw [PhiS1_pos V c _ _ hz]
    by_cases h0 : t.val % 4 = 0
    · rw [if_pos h0]
      iintro ⟨⟨HS0, HR⟩, Hg⟩
      isplitl [HS0 HR]
      · isplitl [HS0]
        · iexists _; iexact HS0
        iexact HR
      iexact Hg
    · rw [if_neg h0]

theorem leaves1_5 (c : Dev nD) (t : Fin cfg1.N) (d) :
    (if t.val % 4 = 3 then owns (c : Thread nD τ) (ms1_5 t) fullShare (k0_pay3 (iblk1 V c 3 t) (iblk1 V c 4 t) (accOf t.val (iblk1 V c 0 t) (iblk1 V c 1 t) (iblk1 V c 2 t) (acc1 V c (t.val - 1) (Nat.lt_of_le_of_lt (Nat.sub_le _ _) t.isLt))))
      else owns (c : Thread nD τ) (ms1_5 t) fullShare ((dat1 V c).before 5 t d)) ⊢ (dat1 V c).leavesExact 5 t := by
  by_cases h3 : t.val % 4 = 3
  · rw [if_pos h3, show (dat1 V c).leavesExact 5 t = owns (c : Thread nD τ) (ms1_5 t) fullShare ((dat1 V c).after 5 t) from by
      unfold Dat.leavesExact; rw [live1_5 t h3], after1_5, acc1_eq V c t]
  · rw [if_neg h3, Dat.leavesExact_idle (dat1 V c) 5 t (idle1_5 t h3).1 (idle1_5 t h3).2]
    iintro H
    iexists _; iexact H

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ, acc1_eq V c t, PhiS1_castSucc V c t]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  iintro ⟨HΦ, Ho, ⟨%d0, H0⟩, ⟨%d1, H1⟩, ⟨%d2, H2⟩, ⟨%d3, H3⟩, ⟨%d4, H4⟩, ⟨%d5, H5⟩⟩
  ihave HΦ' := (PhiS1_open V c t) $$ HΦ
  icases HΦ' with ⟨⟨HS0, HR⟩, Hg⟩
  iapply (body_core c t (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (iblk1 V c 0 t) (iblk1 V c 1 t) (iblk1 V c 2 t) (iblk1 V c 3 t) (iblk1 V c 4 t) (acc1 V c (t.val - 1) (Nat.lt_of_le_of_lt (Nat.sub_le _ _) t.isLt)) ((dat1 V c).before 5 t d5) Set.univ _)
  isplitl [HS0]; · iexact HS0
  isplitl [H0]; · iexact H0
  isplitl [H1]; · iexact H1
  isplitl [H2]; · iexact H2
  isplitl [H3]; · iexact H3
  isplitl [H4]; · iexact H4
  isplitl [H5]; · iexact H5
  iintro ⟨HS0, H0, H1, H2, H3, H4, H5⟩
  isplitl [HS0 HR Hg]
  · isplitl [HS0 HR]
    · isplitl [HS0]; · iexact HS0
      iexact HR
    iexact Hg
  isplitl [Ho]; · iexact Ho
  isplitl [H0]; · iexact H0
  isplitl [H1]; · iexact H1
  isplitl [H2]; · iexact H2
  isplitl [H3]; · iexact H3
  isplitl [H4]; · iexact H4
  iapply (leaves1_5 V c t d5); iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi_out1 V c _ (by rw [Fin.val_last]; have : cfg1.N = 16 := N_1; omega)

end

end Cert.KernelIdeal.Fc

end
-- ==== Proof.FcIdeal.Region2.Setup.lean ====
import proofs.«129729_j34514357190659_1_alg».proof.Proof.FcIdeal.Kernel.Body

set_option maxRecDepth 16384

noncomputable section

namespace Cert.KernelIdeal.Fc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

end

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel

theorem idle2_5 : ∀ t : Fin cfg2.N, ¬t.val % 4 = 3 → cfg2.idle 5 (grid2.coords t) = true ∧ (cfg2.win 5).flush t = false := by decide +kernel
theorem live2_5 : ∀ t : Fin cfg2.N, t.val % 4 = 3 → cfg2.idle 5 (grid2.coords t) = false := by decide +kernel

abbrev ms2_0 (t : Fin cfg2.N) : Memref sig .tc .vmem S512x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x1024 .f32 := win2_5.stage (cfg2.slots t 5)
abbrev hs2_5 (t : Fin cfg2.N) : (ms2_5 t).IsWhole := hstage2_5 ((cfg2.slots t 5).cast nbuf2_5)

abbrev scM2_0 : Memref sig .tc .vmem S512x1024 .f32 := Memref.whole cc2_scratch0

theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.KernelIdeal.Fc

end
-- ==== Proof.FcIdeal.Region2.Data.lean ====
import proofs.«129729_j34514357190659_1_alg».proof.Proof.FcIdeal.Region2.Setup

set_option maxRecDepth 16384

noncomputable section

namespace Cert.KernelIdeal.Fc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

abbrev acc2 (c : Dev nD) : (n : ℕ) → n < cfg2.N → Vec F S512x1024 .f32 :=
  accG (V c (Pipeline.arrRef spec2 0)) (V c (Pipeline.arrRef spec2 1)) (V c (Pipeline.arrRef spec2 2))

theorem acc2_eq (c : Dev nD) (t : Fin cfg2.N) :
    acc2 V c t.val t.isLt = accOf t.val (iblk2 V c 0 t) (iblk2 V c 1 t) (iblk2 V c 2 t) (acc2 V c (t.val - 1) (Nat.lt_of_le_of_lt (Nat.sub_le _ _) t.isLt)) :=
  accG_eq _ _ _ t

def PhiS2 (c : Dev nD) : (n : ℕ) → n ≤ cfg2.N → sProp 𝕄
  | 0, _ => Pipeline.ΦA spec2 c
  | n + 1, hn => iprop(iprop(owns (c : Thread nD τ) scM2_0 fullShare (acc2 V c n hn)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare (acc2 V c n hn)
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare (acc2 V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k0_pay3 (iblk2 V c 3 t) (iblk2 V c 4 t) (acc2 V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = k0_pay3 (iblk2 V c 3 t) (iblk2 V c 4 t) (acc2 V c t.val t.isLt) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl

end

end Cert.KernelIdeal.Fc

end
-- ==== Proof.FcIdeal.Region2.Body.lean ====
import proofs.«129729_j34514357190659_1_alg».proof.Proof.FcIdeal.Region2.Data

set_option maxRecDepth 16384

noncomputable section

namespace Cert.KernelIdeal.Fc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

/-- The invariant before point t names the accumulator's contents only where the point reads them. -/
theorem PhiS2_open (c : Dev nD) (t : Fin cfg2.N) :
    PhiS2 V c t.val (Nat.le_of_lt t.isLt) ⊢ iprop(iprop((if t.val % 4 = 0 then iprop(∃ d, owns (c : Thread nD τ) scM2_0 fullShare d) else owns (c : Thread nD τ) scM2_0 fullShare (acc2 V c (t.val - 1) (Nat.lt_of_le_of_lt (Nat.sub_le _ _) t.isLt)))
      ∗ Pipeline.scopedRestBut (Ix := Unit) (Name := ℕ) (U := UR sig nD τ) (Lvl := ℕ) (Val := Elt F) spec2 c [cc2_scratch0]) ∗ (∃ r, prngReg c r)) := by
  by_cases hz : t.val = 0
  · rw [PhiS2_zero V c _ _ hz, PhiA2_eq, if_pos (by rw [hz])]
  · rw [PhiS2_pos V c _ _ hz]
    by_cases h0 : t.val % 4 = 0
    · rw [if_pos h0]
      iintro ⟨⟨HS0, HR⟩, Hg⟩
      isplitl [HS0 HR]
      · isplitl [HS0]
        · iexists _; iexact HS0
        iexact HR
      iexact Hg
    · rw [if_neg h0]

theorem leaves2_5 (c : Dev nD) (t : Fin cfg2.N) (d) :
    (if t.val % 4 = 3 then owns (c : Thread nD τ) (ms2_5 t) fullShare (k0_pay3 (iblk2 V c 3 t) (iblk2 V c 4 t) (accOf t.val (iblk2 V c 0 t) (iblk2 V c 1 t) (iblk2 V c 2 t) (acc2 V c (t.val - 1) (Nat.lt_of_le_of_lt (Nat.sub_le _ _) t.isLt))))
      else owns (c : Thread nD τ) (ms2_5 t) fullShare ((dat2 V c).before 5 t d)) ⊢ (dat2 V c).leavesExact 5 t := by
  by_cases h3 : t.val % 4 = 3
  · rw [if_pos h3, show (dat2 V c).leavesExact 5 t = owns (c : Thread nD τ) (ms2_5 t) fullShare ((dat2 V c).after 5 t) from by
      unfold Dat.leavesExact; rw [live2_5 t h3], after2_5, acc2_eq V c t]
  · rw [if_neg h3, Dat.leavesExact_idle (dat2 V c) 5 t (idle2_5 t h3).1 (idle2_5 t h3).2]
    iintro H
    iexists _; iexact H

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ, acc2_eq V c t, PhiS2_castSucc V c t]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  iintro ⟨HΦ, Ho, ⟨%d0, H0⟩, ⟨%d1, H1⟩, ⟨%d2, H2⟩, ⟨%d3, H3⟩, ⟨%d4, H4⟩, ⟨%d5, H5⟩⟩
  ihave HΦ' := (PhiS2_open V c t) $$ HΦ
  icases HΦ' with ⟨⟨HS0, HR⟩, Hg⟩
  iapply (body_core c t (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (iblk2 V c 0 t) (iblk2 V c 1 t) (iblk2 V c 2 t) (iblk2 V c 3 t) (iblk2 V c 4 t) (acc2 V c (t.val - 1) (Nat.lt_of_le_of_lt (Nat.sub_le _ _) t.isLt)) ((dat2 V c).before 5 t d5) Set.univ _)
  isplitl [HS0]; · iexact HS0
  isplitl [H0]; · iexact H0
  isplitl [H1]; · iexact H1
  isplitl [H2]; · iexact H2
  isplitl [H3]; · iexact H3
  isplitl [H4]; · iexact H4
  isplitl [H5]; · iexact H5
  iintro ⟨HS0, H0, H1, H2, H3, H4, H5⟩
  isplitl [HS0 HR Hg]
  · isplitl [HS0 HR]
    · isplitl [HS0]; · iexact HS0
      iexact HR
    iexact Hg
  isplitl [Ho]; · iexact Ho
  isplitl [H0]; · iexact H0
  isplitl [H1]; · iexact H1
  isplitl [H2]; · iexact H2
  isplitl [H3]; · iexact H3
  isplitl [H4]; · iexact H4
  iapply (leaves2_5 V c t d5); iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

theorem hout2 (c : Dev nD) : (dat2 V c).Φ (Fin.last cfg2.N) ⊢ Pipeline.ΦA spec2 c :=
  Phi_out2 V c _ (by rw [Fin.val_last]; have : cfg2.N = 16 := N_2; omega)

end

end Cert.KernelIdeal.Fc

end
-- ==== Proof.FcIdeal.Region3.Setup.lean ====
import proofs.«129729_j34514357190659_1_alg».proof.Proof.FcIdeal.Kernel.Body

set_option maxRecDepth 16384

noncomputable section

namespace Cert.KernelIdeal.Fc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

end

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel

theorem idle3_5 : ∀ t : Fin cfg3.N, ¬t.val % 4 = 3 → cfg3.idle 5 (grid3.coords t) = true ∧ (cfg3.win 5).flush t = false := by decide +kernel
theorem live3_5 : ∀ t : Fin cfg3.N, t.val % 4 = 3 → cfg3.idle 5 (grid3.coords t) = false := by decide +kernel

abbrev ms3_0 (t : Fin cfg3.N) : Memref sig .tc .vmem S512x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1024 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1024 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S512x1024 .f32 := win3_5.stage (cfg3.slots t 5)
abbrev hs3_5 (t : Fin cfg3.N) : (ms3_5 t).IsWhole := hstage3_5 ((cfg3.slots t 5).cast nbuf3_5)

abbrev scM3_0 : Memref sig .tc .vmem S512x1024 .f32 := Memref.whole cc3_scratch0

theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

end Cert.KernelIdeal.Fc

end
-- ==== Proof.FcIdeal.Region3.Data.lean ====
import proofs.«129729_j34514357190659_1_alg».proof.Proof.FcIdeal.Region3.Setup

set_option maxRecDepth 16384

noncomputable section

namespace Cert.KernelIdeal.Fc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

abbrev acc3 (c : Dev nD) : (n : ℕ) → n < cfg3.N → Vec F S512x1024 .f32 :=
  accG (V c (Pipeline.arrRef spec3 0)) (V c (Pipeline.arrRef spec3 1)) (V c (Pipeline.arrRef spec3 2))

theorem acc3_eq (c : Dev nD) (t : Fin cfg3.N) :
    acc3 V c t.val t.isLt = accOf t.val (iblk3 V c 0 t) (iblk3 V c 1 t) (iblk3 V c 2 t) (acc3 V c (t.val - 1) (Nat.lt_of_le_of_lt (Nat.sub_le _ _) t.isLt)) :=
  accG_eq _ _ _ t

def PhiS3 (c : Dev nD) : (n : ℕ) → n ≤ cfg3.N → sProp 𝕄
  | 0, _ => Pipeline.ΦA spec3 c
  | n + 1, hn => iprop(iprop(owns (c : Thread nD τ) scM3_0 fullShare (acc3 V c n hn)
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare (acc3 V c n hn)
      ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3_0 fullShare (acc3 V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => k0_pay3 (iblk3 V c 3 t) (iblk3 V c 4 t) (acc3 V c t.val t.isLt)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = k0_pay3 (iblk3 V c 3 t) (iblk3 V c 4 t) (acc3 V c t.val t.isLt) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl

end

end Cert.KernelIdeal.Fc

end
-- ==== Proof.FcIdeal.Region3.Body.lean ====
import proofs.«129729_j34514357190659_1_alg».proof.Proof.FcIdeal.Region3.Data

set_option maxRecDepth 16384

noncomputable section

namespace Cert.KernelIdeal.Fc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

/-- The invariant before point t names the accumulator's contents only where the point reads them. -/
theorem PhiS3_open (c : Dev nD) (t : Fin cfg3.N) :
    PhiS3 V c t.val (Nat.le_of_lt t.isLt) ⊢ iprop(iprop((if t.val % 4 = 0 then iprop(∃ d, owns (c : Thread nD τ) scM3_0 fullShare d) else owns (c : Thread nD τ) scM3_0 fullShare (acc3 V c (t.val - 1) (Nat.lt_of_le_of_lt (Nat.sub_le _ _) t.isLt)))
      ∗ Pipeline.scopedRestBut (Ix := Unit) (Name := ℕ) (U := UR sig nD τ) (Lvl := ℕ) (Val := Elt F) spec3 c [cc3_scratch0]) ∗ (∃ r, prngReg c r)) := by
  by_cases hz : t.val = 0
  · rw [PhiS3_zero V c _ _ hz, PhiA3_eq, if_pos (by rw [hz])]
  · rw [PhiS3_pos V c _ _ hz]
    by_cases h0 : t.val % 4 = 0
    · rw [if_pos h0]
      iintro ⟨⟨HS0, HR⟩, Hg⟩
      isplitl [HS0 HR]
      · isplitl [HS0]
        · iexists _; iexact HS0
        iexact HR
      iexact Hg
    · rw [if_neg h0]

theorem leaves3_5 (c : Dev nD) (t : Fin cfg3.N) (d) :
    (if t.val % 4 = 3 then owns (c : Thread nD τ) (ms3_5 t) fullShare (k0_pay3 (iblk3 V c 3 t) (iblk3 V c 4 t) (accOf t.val (iblk3 V c 0 t) (iblk3 V c 1 t) (iblk3 V c 2 t) (acc3 V c (t.val - 1) (Nat.lt_of_le_of_lt (Nat.sub_le _ _) t.isLt))))
      else owns (c : Thread nD τ) (ms3_5 t) fullShare ((dat3 V c).before 5 t d)) ⊢ (dat3 V c).leavesExact 5 t := by
  by_cases h3 : t.val % 4 = 3
  · rw [if_pos h3, show (dat3 V c).leavesExact 5 t = owns (c : Thread nD τ) (ms3_5 t) fullShare ((dat3 V c).after 5 t) from by
      unfold Dat.leavesExact; rw [live3_5 t h3], after3_5, acc3_eq V c t]
  · rw [if_neg h3, Dat.leavesExact_idle (dat3 V c) 5 t (idle3_5 t h3).1 (idle3_5 t h3).2]
    iintro H
    iexists _; iexact H

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ, acc3_eq V c t, PhiS3_castSucc V c t]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  iintro ⟨HΦ, Ho, ⟨%d0, H0⟩, ⟨%d1, H1⟩, ⟨%d2, H2⟩, ⟨%d3, H3⟩, ⟨%d4, H4⟩, ⟨%d5, H5⟩⟩
  ihave HΦ' := (PhiS3_open V c t) $$ HΦ
  icases HΦ' with ⟨⟨HS0, HR⟩, Hg⟩
  iapply (body_core c t (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (iblk3 V c 0 t) (iblk3 V c 1 t) (iblk3 V c 2 t) (iblk3 V c 3 t) (iblk3 V c 4 t) (acc3 V c (t.val - 1) (Nat.lt_of_le_of_lt (Nat.sub_le _ _) t.isLt)) ((dat3 V c).before 5 t d5) Set.univ _)
  isplitl [HS0]; · iexact HS0
  isplitl [H0]; · iexact H0
  isplitl [H1]; · iexact H1
  isplitl [H2]; · iexact H2
  isplitl [H3]; · iexact H3
  isplitl [H4]; · iexact H4
  isplitl [H5]; · iexact H5
  iintro ⟨HS0, H0, H1, H2, H3, H4, H5⟩
  isplitl [HS0 HR Hg]
  · isplitl [HS0 HR]
    · isplitl [HS0]; · iexact HS0
      iexact HR
    iexact Hg
  isplitl [Ho]; · iexact Ho
  isplitl [H0]; · iexact H0
  isplitl [H1]; · iexact H1
  isplitl [H2]; · iexact H2
  isplitl [H3]; · iexact H3
  isplitl [H4]; · iexact H4
  iapply (leaves3_5 V c t d5); iexact H5

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

theorem hout3 (c : Dev nD) : (dat3 V c).Φ (Fin.last cfg3.N) ⊢ Pipeline.ΦA spec3 c :=
  Phi_out3 V c _ (by rw [Fin.val_last]; have : cfg3.N = 16 := N_3; omega)

end

end Cert.KernelIdeal.Fc

end
-- ==== Proof.FcIdeal.Fold.lean ====
import proofs.«129729_j34514357190659_1_alg».proof.Proof.Gen.KernelIdeal.Regions
import proofs.«129729_j34514357190659_1_alg».proof.Proof.FcIdeal.Region0.Body
import proofs.«129729_j34514357190659_1_alg».proof.Proof.FcIdeal.Region1.Body
import proofs.«129729_j34514357190659_1_alg».proof.Proof.FcIdeal.Region2.Body
import proofs.«129729_j34514357190659_1_alg».proof.Proof.FcIdeal.Region3.Body
import Idealize.ShloMosaic.Lib.Pipeline.RegionsLoop
import Idealize.ShloMosaic.Lib.Pipeline.FrameSuffix

set_option maxRecDepth 16384

noncomputable section

namespace Cert.KernelIdeal.Fc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)

abbrev W2 : Dev nD → Valuation τ sig (Elt F) := fun c => StableHlo.after hostOps0_1 (W1 m c)

abbrev W3 : Dev nD → Valuation τ sig (Elt F) := fun c => StableHlo.after hostOps0_2 (W2 m c)

abbrev E3 : (c : Dev nD) → (b : Ref sig .tc) → Buf (Elt F) ((c : Thread nD τ).loc b) := fun c b => W3 m c b

def W4 (c : Dev nD) : Valuation τ sig (Elt F) := Pipeline.withArrays spec0 c (W3 m c) fun w => (dat0 (E3 m) c).arrAt w cfg0.N

abbrev W5 : Dev nD → Valuation τ sig (Elt F) := fun c => StableHlo.after hostOps1 (W4 m c)
abbrev E5 : (c : Dev nD) → (b : Ref sig .tc) → Buf (Elt F) ((c : Thread nD τ).loc b) := fun c b => W5 m c b

def W6 (c : Dev nD) : Valuation τ sig (Elt F) := Pipeline.withArrays spec1 c (W5 m c) fun w => (dat1 (E5 m) c).arrAt w cfg1.N

abbrev W7 : Dev nD → Valuation τ sig (Elt F) := fun c => StableHlo.after hostOps2 (W6 m c)
abbrev E7 : (c : Dev nD) → (b : Ref sig .tc) → Buf (Elt F) ((c : Thread nD τ).loc b) := fun c b => W7 m c b

def W8 (c : Dev nD) : Valuation τ sig (Elt F) := Pipeline.withArrays spec2 c (W7 m c) fun w => (dat2 (E7 m) c).arrAt w cfg2.N

abbrev W9 : Dev nD → Valuation τ sig (Elt F) := fun c => StableHlo.after hostOps3 (W8 m c)
abbrev E9 : (c : Dev nD) → (b : Ref sig .tc) → Buf (Elt F) ((c : Thread nD τ).loc b) := fun c b => W9 m c b

def W10 (c : Dev nD) : Valuation τ sig (Elt F) := Pipeline.withArrays spec3 c (W9 m c) fun w => (dat3 (E9 m) c).arrAt w cfg3.N

abbrev W11 : Dev nD → Valuation τ sig (Elt F) := fun c => StableHlo.after hostOps4 (W10 m c)

theorem W4_arr (c : Dev nD) (w : Fin cfg0.W) :
    W4 m c (Proc.devRef .tc (Pipeline.arrRef spec0 w)) = (dat0 (E3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem hF0 (c : Dev nD) (w : Fin cfg0.W) : (dat0 (E3 m) c).arrAt w cfg0.N = W4 m c (Pipeline.arrRef spec0 w) :=
  (W4_arr m c w).symm
theorem hrest0 (c : Dev nD) : ∀ b, b ∉ Finset.univ.image (Pipeline.arrRef spec0) → W4 m c (Proc.devRef .tc b) = W3 m c (Proc.devRef .tc b) :=
  fun b hb => W4_of_ne m c b fun w e => hb (Finset.mem_image.mpr ⟨w, Finset.mem_univ _, e⟩)

theorem W6_arr (c : Dev nD) (w : Fin cfg1.W) :
    W6 m c (Proc.devRef .tc (Pipeline.arrRef spec1 w)) = (dat1 (E5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem hF1 (c : Dev nD) (w : Fin cfg1.W) : (dat1 (E5 m) c).arrAt w cfg1.N = W6 m c (Pipeline.arrRef spec1 w) :=
  (W6_arr m c w).symm
theorem hrest1 (c : Dev nD) : ∀ b, b ∉ Finset.univ.image (Pipeline.arrRef spec1) → W6 m c (Proc.devRef .tc b) = W5 m c (Proc.devRef .tc b) :=
  fun b hb => W6_of_ne m c b fun w e => hb (Finset.mem_image.mpr ⟨w, Finset.mem_univ _, e⟩)

theorem W8_arr (c : Dev nD) (w : Fin cfg2.W) :
    W8 m c (Proc.devRef .tc (Pipeline.arrRef spec2 w)) = (dat2 (E7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
theorem hF2 (c : Dev nD) (w : Fin cfg2.W) : (dat2 (E7 m) c).arrAt w cfg2.N = W8 m c (Pipeline.arrRef spec2 w) :=
  (W8_arr m c w).symm
theorem hrest2 (c : Dev nD) : ∀ b, b ∉ Finset.univ.image (Pipeline.arrRef spec2) → W8 m c (Proc.devRef .tc b) = W7 m c (Proc.devRef .tc b) :=
  fun b hb => W8_of_ne m c b fun w e => hb (Finset.mem_image.mpr ⟨w, Finset.mem_univ _, e⟩)

theorem W10_arr (c : Dev nD) (w : Fin cfg3.W) :
    W10 m c (Proc.devRef .tc (Pipeline.arrRef spec3 w)) = (dat3 (E9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
theorem hF3 (c : Dev nD) (w : Fin cfg3.W) : (dat3 (E9 m) c).arrAt w cfg3.N = W10 m c (Pipeline.arrRef spec3 w) :=
  (W10_arr m c w).symm
theorem hrest3 (c : Dev nD) : ∀ b, b ∉ Finset.univ.image (Pipeline.arrRef spec3) → W10 m c (Proc.devRef .tc b) = W9 m c (Proc.devRef .tc b) :=
  fun b hb => W10_of_ne m c b fun w e => hb (Finset.mem_image.mpr ⟨w, Finset.mem_univ _, e⟩)

/-- Away from a launch's result array the contents after the launch are the contents before it. -/
theorem withArrays_keep {cfg : Pipeline.Cfg sig Λ₀} (c : Dev nD) (dat : Pipeline.Dat τ (Elt F) Unit ℕ (UR sig nD τ) ℕ cfg c) (Wp : Valuation τ sig (Elt F))
    (hinj : Function.Injective (Pipeline.arrRef (fun w => (cfg.win w).toWinSpec)))
    (hA : ∀ w, dat.A w = Wp (Proc.devRef .tc (Pipeline.arrRef (fun w => (cfg.win w).toWinSpec) w)))
    (o : Ref sig .tc) (ho : ∀ w, (cfg.win w).isOut = true → Pipeline.arrRef (fun w => (cfg.win w).toWinSpec) w = o) (b : Ref sig .tc) (hb : b ≠ o) :
    Pipeline.withArrays (fun w => (cfg.win w).toWinSpec) c Wp (fun w => dat.arrAt w cfg.N) (Proc.devRef .tc b) = Wp (Proc.devRef .tc b) := by
  by_cases h : ∃ w, Pipeline.arrRef (fun w => (cfg.win w).toWinSpec) w = b
  · obtain ⟨w, rfl⟩ := h
    have hin : (cfg.win w).isOut = false := by
      cases hw : (cfg.win w).isOut with
      | false => rfl
      | true => exact absurd (ho w hw) hb
    exact (Pipeline.withArrays_arr _ hinj c _ _ w).trans ((dat.arrAt_in w hin _).trans (hA w))
  · exact Pipeline.withArrays_of_ne _ c _ _ b fun w e => h ⟨w, e⟩

theorem W4_keep (c : Dev nD) (b : Ref sig .tc) (hb : b ≠ main_v24) : W4 m c (Proc.devRef .tc b) = W3 m c (Proc.devRef .tc b) :=
  withArrays_keep c (dat0 (E3 m) c) (W3 m c) launch0.win.arr_inj (A_eq0 (E3 m) c) main_v24 (fun w hw => by fin_cases w <;> first | exact absurd hw (by decide) | rfl) b hb
theorem W6_keep (c : Dev nD) (b : Ref sig .tc) (hb : b ≠ main_v28) : W6 m c (Proc.devRef .tc b) = W5 m c (Proc.devRef .tc b) :=
  withArrays_keep c (dat1 (E5 m) c) (W5 m c) launch1.win.arr_inj (A_eq1 (E5 m) c) main_v28 (fun w hw => by fin_cases w <;> first | exact absurd hw (by decide) | rfl) b hb
theorem W8_keep (c : Dev nD) (b : Ref sig .tc) (hb : b ≠ main_v32) : W8 m c (Proc.devRef .tc b) = W7 m c (Proc.devRef .tc b) :=
  withArrays_keep c (dat2 (E7 m) c) (W7 m c) launch2.win.arr_inj (A_eq2 (E7 m) c) main_v32 (fun w hw => by fin_cases w <;> first | exact absurd hw (by decide) | rfl) b hb
theorem W10_keep (c : Dev nD) (b : Ref sig .tc) (hb : b ≠ main_v36) : W10 m c (Proc.devRef .tc b) = W9 m c (Proc.devRef .tc b) :=
  withArrays_keep c (dat3 (E9 m) c) (W9 m c) launch3.win.arr_inj (A_eq3 (E9 m) c) main_v36 (fun w hw => by fin_cases w <;> first | exact absurd hw (by decide) | rfl) b hb

theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
theorem W5_of (c : Dev nD) (r : Ref sig .tc) (h : r ∉ hostOps1_W) : W5 m c (Proc.devRef .tc r) = W4 m c (Proc.devRef .tc r) :=
  StableHlo.after_of_writes_sub hostOps1 _ hostOps1_writes h
theorem W7_of (c : Dev nD) (r : Ref sig .tc) (h : r ∉ hostOps2_W) : W7 m c (Proc.devRef .tc r) = W6 m c (Proc.devRef .tc r) :=
  StableHlo.after_of_writes_sub hostOps2 _ hostOps2_writes h
theorem W9_of (c : Dev nD) (r : Ref sig .tc) (h : r ∉ hostOps3_W) : W9 m c (Proc.devRef .tc r) = W8 m c (Proc.devRef .tc r) :=
  StableHlo.after_of_writes_sub hostOps3 _ hostOps3_writes h
theorem W11_of (c : Dev nD) (r : Ref sig .tc) (h : r ∉ hostOps4_W) : W11 m c (Proc.devRef .tc r) = W10 m c (Proc.devRef .tc r) :=
  StableHlo.after_of_writes_sub hostOps4 _ hostOps4_writes h

abbrev Untouched (r : Ref sig .tc) : Prop :=
  r ∉ hostOps0_W ∧ r ∉ hostOps0_1_W ∧ r ∉ hostOps0_2_W ∧ r ≠ main_v24 ∧ r ∉ hostOps1_W ∧ r ≠ main_v28 ∧ r ∉ hostOps2_W
    ∧ r ≠ main_v32 ∧ r ∉ hostOps3_W ∧ r ≠ main_v36 ∧ r ∉ hostOps4_W

theorem W1_launch (c : Dev nD) (r : Ref sig .tc) (h : Untouched r) : W1 m c (Proc.devRef .tc r) = m ((c : Thread nD τ).loc r) :=
  W1_of m c r h.1
theorem W2_launch (c : Dev nD) (r : Ref sig .tc) (h : Untouched r) : W2 m c (Proc.devRef .tc r) = m ((c : Thread nD τ).loc r) :=
  (W2_of m c r h.2.1).trans (W1_launch m c r h)
theorem W3_launch (c : Dev nD) (r : Ref sig .tc) (h : Untouched r) : W3 m c (Proc.devRef .tc r) = m ((c : Thread nD τ).loc r) :=
  (W3_of m c r h.2.2.1).trans (W2_launch m c r h)
theorem W4_launch (c : Dev nD) (r : Ref sig .tc) (h : Untouched r) : W4 m c (Proc.devRef .tc r) = m ((c : Thread nD τ).loc r) :=
  (W4_keep m c r h.2.2.2.1).trans (W3_launch m c r h)
theorem W5_launch (c : Dev nD) (r : Ref sig .tc) (h : Untouched r) : W5 m c (Proc.devRef .tc r) = m ((c : Thread nD τ).loc r) :=
  (W5_of m c r h.2.2.2.2.1).trans (W4_launch m c r h)
theorem W6_launch (c : Dev nD) (r : Ref sig .tc) (h : Untouched r) : W6 m c (Proc.devRef .tc r) = m ((c : Thread nD τ).loc r) :=
  (W6_keep m c r h.2.2.2.2.2.1).trans (W5_launch m c r h)
theorem W7_launch (c : Dev nD) (r : Ref sig .tc) (h : Untouched r) : W7 m c (Proc.devRef .tc r) = m ((c : Thread nD τ).loc r) :=
  (W7_of m c r h.2.2.2.2.2.2.1).trans (W6_launch m c r h)
theorem W8_launch (c : Dev nD) (r : Ref sig .tc) (h : Untouched r) : W8 m c (Proc.devRef .tc r) = m ((c : Thread nD τ).loc r) :=
  (W8_keep m c r h.2.2.2.2.2.2.2.1).trans (W7_launch m c r h)
theorem W9_launch (c : Dev nD) (r : Ref sig .tc) (h : Untouched r) : W9 m c (Proc.devRef .tc r) = m ((c : Thread nD τ).loc r) :=
  (W9_of m c r h.2.2.2.2.2.2.2.2.1).trans (W8_launch m c r h)
theorem W10_launch (c : Dev nD) (r : Ref sig .tc) (h : Untouched r) : W10 m c (Proc.devRef .tc r) = m ((c : Thread nD τ).loc r) :=
  (W10_keep m c r h.2.2.2.2.2.2.2.2.2.1).trans (W9_launch m c r h)
theorem W11_launch (c : Dev nD) (r : Ref sig .tc) (h : Untouched r) : W11 m c (Proc.devRef .tc r) = m ((c : Thread nD τ).loc r) :=
  (W11_of m c r h.2.2.2.2.2.2.2.2.2.2).trans (W10_launch m c r h)

theorem W11_main_arg0 (c : Dev nD) : W11 m c (Proc.devRef .tc main_arg0) = m ((c : Thread nD τ).loc main_arg0) :=
  W11_launch m c main_arg0 (by decide)
theorem W11_main_arg1 (c : Dev nD) : W11 m c (Proc.devRef .tc main_arg1) = m ((c : Thread nD τ).loc main_arg1) :=
  W11_launch m c main_arg1 (by decide)
theorem W11_main_arg2 (c : Dev nD) : W11 m c (Proc.devRef .tc main_arg2) = m ((c : Thread nD τ).loc main_arg2) :=
  W11_launch m c main_arg2 (by decide)
theorem W11_main_arg3 (c : Dev nD) : W11 m c (Proc.devRef .tc main_arg3) = m ((c : Thread nD τ).loc main_arg3) :=
  W11_launch m c main_arg3 (by decide)
theorem W11_main_arg4 (c : Dev nD) : W11 m c (Proc.devRef .tc main_arg4) = m ((c : Thread nD τ).loc main_arg4) :=
  W11_launch m c main_arg4 (by decide)
theorem W11_main_arg5 (c : Dev nD) : W11 m c (Proc.devRef .tc main_arg5) = m ((c : Thread nD τ).loc main_arg5) :=
  W11_launch m c main_arg5 (by decide)
theorem W11_main_arg6 (c : Dev nD) : W11 m c (Proc.devRef .tc main_arg6) = m ((c : Thread nD τ).loc main_arg6) :=
  W11_launch m c main_arg6 (by decide)
theorem W11_main_arg7 (c : Dev nD) : W11 m c (Proc.devRef .tc main_arg7) = m ((c : Thread nD τ).loc main_arg7) :=
  W11_launch m c main_arg7 (by decide)
theorem W11_main_arg8 (c : Dev nD) : W11 m c (Proc.devRef .tc main_arg8) = m ((c : Thread nD τ).loc main_arg8) :=
  W11_launch m c main_arg8 (by decide)
theorem W11_main_arg9 (c : Dev nD) : W11 m c (Proc.devRef .tc main_arg9) = m ((c : Thread nD τ).loc main_arg9) :=
  W11_launch m c main_arg9 (by decide)
theorem W11_main_arg10 (c : Dev nD) : W11 m c (Proc.devRef .tc main_arg10) = m ((c : Thread nD τ).loc main_arg10) :=
  W11_launch m c main_arg10 (by decide)
theorem W11_main_arg11 (c : Dev nD) : W11 m c (Proc.devRef .tc main_arg11) = m ((c : Thread nD τ).loc main_arg11) :=
  W11_launch m c main_arg11 (by decide)

theorem E3_main_arg0 (c : Dev nD) : E3 m c main_arg0 = m ((c : Thread nD τ).loc main_arg0) := W3_launch m c main_arg0 (by decide)
theorem E3_main_arg5 (c : Dev nD) : E3 m c main_arg5 = m ((c : Thread nD τ).loc main_arg5) := W3_launch m c main_arg5 (by decide)
theorem E5_main_arg0 (c : Dev nD) : E5 m c main_arg0 = m ((c : Thread nD τ).loc main_arg0) := W5_launch m c main_arg0 (by decide)
theorem E5_main_arg5 (c : Dev nD) : E5 m c main_arg5 = m ((c : Thread nD τ).loc main_arg5) := W5_launch m c main_arg5 (by decide)
theorem E7_main_arg0 (c : Dev nD) : E7 m c main_arg0 = m ((c : Thread nD τ).loc main_arg0) := W7_launch m c main_arg0 (by decide)
theorem E7_main_arg5 (c : Dev nD) : E7 m c main_arg5 = m ((c : Thread nD τ).loc main_arg5) := W7_launch m c main_arg5 (by decide)
theorem E9_main_arg0 (c : Dev nD) : E9 m c main_arg0 = m ((c : Thread nD τ).loc main_arg0) := W9_launch m c main_arg0 (by decide)
theorem E9_main_arg5 (c : Dev nD) : E9 m c main_arg5 = m ((c : Thread nD τ).loc main_arg5) := W9_launch m c main_arg5 (by decide)

theorem W4_main_v20 (c : Dev nD) : W4 m c (Proc.devRef .tc main_v20) = W3 m c (Proc.devRef .tc main_v20) := W4_keep m c main_v20 (by decide)
theorem W6_main_v20 (c : Dev nD) : W6 m c (Proc.devRef .tc main_v20) = W3 m c (Proc.devRef .tc main_v20) :=
  (W6_keep m c main_v20 (by decide)).trans ((W5_of m c main_v20 (by decide)).trans (W4_main_v20 m c))
theorem W8_main_v20 (c : Dev nD) : W8 m c (Proc.devRef .tc main_v20) = W3 m c (Proc.devRef .tc main_v20) :=
  (W8_keep m c main_v20 (by decide)).trans ((W7_of m c main_v20 (by decide)).trans (W6_main_v20 m c))
theorem W4_main_arg3 (c : Dev nD) : W4 m c (Proc.devRef .tc main_arg3) = m ((c : Thread nD τ).loc main_arg3) := W4_launch m c main_arg3 (by decide)
theorem W6_main_arg3 (c : Dev nD) : W6 m c (Proc.devRef .tc main_arg3) = m ((c : Thread nD τ).loc main_arg3) := W6_launch m c main_arg3 (by decide)
theorem W8_main_arg3 (c : Dev nD) : W8 m c (Proc.devRef .tc main_arg3) = m ((c : Thread nD τ).loc main_arg3) := W8_launch m c main_arg3 (by decide)
theorem W2_main_arg3 (c : Dev nD) : W2 m c (Proc.devRef .tc main_arg3) = m ((c : Thread nD τ).loc main_arg3) := W2_launch m c main_arg3 (by decide)
theorem W4_main_arg4 (c : Dev nD) : W4 m c (Proc.devRef .tc main_arg4) = m ((c : Thread nD τ).loc main_arg4) := W4_launch m c main_arg4 (by decide)
theorem W6_main_arg4 (c : Dev nD) : W6 m c (Proc.devRef .tc main_arg4) = m ((c : Thread nD τ).loc main_arg4) := W6_launch m c main_arg4 (by decide)
theorem W8_main_arg4 (c : Dev nD) : W8 m c (Proc.devRef .tc main_arg4) = m ((c : Thread nD τ).loc main_arg4) := W8_launch m c main_arg4 (by decide)
theorem W2_main_arg4 (c : Dev nD) : W2 m c (Proc.devRef .tc main_arg4) = m ((c : Thread nD τ).loc main_arg4) := W2_launch m c main_arg4 (by decide)

theorem W10_main_v24 (c : Dev nD) : W10 m c (Proc.devRef .tc main_v24) = (dat0 (E3 m) c).arrAt 5 cfg0.N :=
  (W10_keep m c main_v24 (by decide)).trans <| (W9_of m c main_v24 (by decide)).trans <| (W8_keep m c main_v24 (by decide)).trans <|
    (W7_of m c main_v24 (by decide)).trans <| (W6_keep m c main_v24 (by decide)).trans <| (W5_of m c main_v24 (by decide)).trans (W4_arr m c 5)
theorem W10_main_v28 (c : Dev nD) : W10 m c (Proc.devRef .tc main_v28) = (dat1 (E5 m) c).arrAt 5 cfg1.N :=
  (W10_keep m c main_v28 (by decide)).trans <| (W9_of m c main_v28 (by decide)).trans <| (W8_keep m c main_v28 (by decide)).trans <|
    (W7_of m c main_v28 (by decide)).trans (W6_arr m c 5)
theorem W10_main_v32 (c : Dev nD) : W10 m c (Proc.devRef .tc main_v32) = (dat2 (E7 m) c).arrAt 5 cfg2.N :=
  (W10_keep m c main_v32 (by decide)).trans <| (W9_of m c main_v32 (by decide)).trans (W8_arr m c 5)
theorem W10_main_v36 (c : Dev nD) : W10 m c (Proc.devRef .tc main_v36) = (dat3 (E9 m) c).arrAt 5 cfg3.N :=
  W10_arr m c 5

end Cert.KernelIdeal.Fc

end
-- ==== Proof.FcIdeal.Launch.lean ====
import proofs.«129729_j34514357190659_1_alg».proof.Proof.FcIdeal.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 4) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E5 m) c
  | ⟨2, _⟩ => fun c => dat2 (E7 m) c
  | ⟨3, _⟩ => fun c => dat3 (E9 m) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W11 m c) ∗ ∃ r, prngReg c r)

set_option backward.isDefEq.respectTransparency.types false in
/-- A launch as an item of @main, from its own ingredients: one text for the four launches. -/
def mkReg (p : Fin 4) (lf : Pipeline.LaunchFacts (nD := nD) (τ := τ) cfgs p) (Win Wout : Dev nD → Valuation τ sig (Elt F))
    (hbody : ∀ c, BodyObligation (pdats m p c) (defs₀ (F := F)) 𝒱₀ () Set.univ)
    (howed : ∀ c t, (pdats m p c).owed t = 0) (hrec : ∀ c t, (pdats m p c).recorded t = Set.univ)
    (hq : ∀ c w, (pdats m p c).share w = fullShare)
    (hA : ∀ c w, (pdats m p c).A w = Win c (Pipeline.arrRef (pcfgs (F := F) p).spec w))
    (hin : ∀ c, Pipeline.ΦA (pcfgs (F := F) p).spec c ⊢ (pdats m p c).Φ 0)
    (hout : ∀ c, (pdats m p c).Φ (Fin.last (Pipeline.pin (pcfgs (F := F)) adm p).N) ⊢ Pipeline.ΦA (pcfgs (F := F) p).spec c)
    (hF : ∀ c w, (pdats m p c).arrAt w (Pipeline.pin (pcfgs (F := F)) adm p).N = Wout c (Pipeline.arrRef (Pipeline.pin (pcfgs (F := F)) adm p).spec w))
    (hrest : ∀ c b, b ∉ Finset.univ.image (Pipeline.arrRef (Pipeline.pin (pcfgs (F := F)) adm p).spec) → Wout c (Proc.devRef .tc b) = Win c (Proc.devRef .tc b)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (fun b => Win c b)
  hentry c := by
    rw [Pipeline.ownSems0_none]
    have hsplit := Pipeline.arrays_of_unscopedBufs (p := p) (pcfgs (F := F)) adm (pdats m) lf.win lf.arr_whole c (hq c) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl ((hrec c 0).symm ▸ Set.mem_univ _)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) (hq c) (fun b => Win c b) (fun b => Wout c b) ((pdats m p c).arrAt · (Pipeline.pin (pcfgs (F := F)) adm p).N) (hF c) (hrest c)
    rw [Pipeline.unscopedBufs_held] at hjoin
    unfold Pipeline.Dat.owesAt Pipeline.owesWithin
    rw [howed c]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

def reg0 : Pipeline.RegionSeg (pcfgs (F := F)) adm (pdats m) () defs₀ 𝒱₀ L lv 0 :=
  mkReg m 0 launch0 (W3 m) (W4 m) (body_obligation0 (E3 m)) (fun _ _ => rfl) (fun _ _ => rfl) (fun c => (pdats m 0 c).share_full fun _ => rfl)
    (fun _ _ => rfl) (hin0 (E3 m)) (hout0 (E3 m)) (hF0 m) (hrest0 m)

def reg1 : Pipeline.RegionSeg (pcfgs (F := F)) adm (pdats m) () defs₀ 𝒱₀ L lv 1 :=
  mkReg m 1 launch1 (W5 m) (W6 m) (body_obligation1 (E5 m)) (fun _ _ => rfl) (fun _ _ => rfl) (fun c => (pdats m 1 c).share_full fun _ => rfl)
    (fun _ _ => rfl) (hin1 (E5 m)) (hout1 (E5 m)) (hF1 m) (hrest1 m)

def reg2 : Pipeline.RegionSeg (pcfgs (F := F)) adm (pdats m) () defs₀ 𝒱₀ L lv 2 :=
  mkReg m 2 launch2 (W7 m) (W8 m) (body_obligation2 (E7 m)) (fun _ _ => rfl) (fun _ _ => rfl) (fun c => (pdats m 2 c).share_full fun _ => rfl)
    (fun _ _ => rfl) (hin2 (E7 m)) (hout2 (E7 m)) (hF2 m) (hrest2 m)

def reg3 : Pipeline.RegionSeg (pcfgs (F := F)) adm (pdats m) () defs₀ 𝒱₀ L lv 3 :=
  mkReg m 3 launch3 (W9 m) (W10 m) (body_obligation3 (E9 m)) (fun _ _ => rfl) (fun _ _ => rfl) (fun c => (pdats m 3 c).share_full fun _ => rfl)
    (fun _ _ => rfl) (hin3 (E9 m)) (hout3 (E9 m)) (hF3 m) (hrest3 m)

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)) ]

set_option backward.isDefEq.respectTransparency.types false in

theorem run_all : θ_run defs (onTc (τ := τ) (main (F := F))) ⟨m, fun _ => 0, ρ⟩
    (fun r => ∀ c : Dev nD, ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (W11 m c) ∗ R c)
          ⊢ iprop(Tₙ m c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W11_main_arg0 m c),
      (h c _ (mem_uc main_arg1 (by decide))).trans (W11_main_arg1 m c),
      (h c _ (mem_uc main_arg2 (by decide))).trans (W11_main_arg2 m c),
      (h c _ (mem_uc main_arg3 (by decide))).trans (W11_main_arg3 m c),
      (h c _ (mem_uc main_arg4 (by decide))).trans (W11_main_arg4 m c),
      (h c _ (mem_uc main_arg5 (by decide))).trans (W11_main_arg5 m c),
      (h c _ (mem_uc main_arg6 (by decide))).trans (W11_main_arg6 m c),
      (h c _ (mem_uc main_arg7 (by decide))).trans (W11_main_arg7 m c),
      (h c _ (mem_uc main_arg8 (by decide))).trans (W11_main_arg8 m c),
      (h c _ (mem_uc main_arg9 (by decide))).trans (W11_main_arg9 m c),
      (h c _ (mem_uc main_arg10 (by decide))).trans (W11_main_arg10 m c),
      (h c _ (mem_uc main_arg11 (by decide))).trans (W11_main_arg11 m c)⟩) (run_all m ρ)

end Cert.KernelIdeal.Fc

end
-- ==== Proof.Spec.lean ====
import Idealize.ShloMosaic.PureOps.Ideal
import Idealize.ShloMosaic.Lib.ValueIdx
import Mathlib.Algebra.BigOperators.Fin
import Mathlib.Data.Fintype.BigOperators

noncomputable section

open scoped BigOperators

namespace Cert.FcSpec

open Idealize.ShloMosaic Idealize.ShloMosaic.ValueIdx

abbrev SX : Shape := ⟨2, ![512, 4096]⟩

abbrev SW : Shape := ⟨2, ![4096, 4096]⟩

abbrev SV : Shape := ⟨2, ![4, 4096]⟩

abbrev SO : Shape := ⟨2, ![2048, 4096]⟩

def fcEntry (x : Fin 512 → Fin 4096 → EReal) (w : Fin 4096 → Fin 4096 → EReal) (a g b : Fin 4096 → EReal)
    (r : Fin 512) (n : Fin 4096) : EReal :=
  (∑ k : Fin 4096, (x r k * a k) * w n k) * g n + b n

def modelOf (p : Fin 2048) : Fin 4 := ⟨p.val / 512, by omega⟩

def rowOf (p : Fin 2048) : Fin 512 := ⟨p.val % 512, by omega⟩

def fcAll (x : SX.Idx → EReal) (w : SW.Idx → EReal) (a g b : SV.Idx → EReal) : SO.Idx → EReal := fun i =>
  fcEntry (fun r k => x (ix2 r k)) (fun n k => w (ix2 n k))
    (fun k => a (ix2 (modelOf (i 0)) k)) (fun n => g (ix2 (modelOf (i 0)) n)) (fun n => b (ix2 (modelOf (i 0)) n))
    (rowOf (i 0)) (i 1)

theorem fcAll_ix2 (x : SX.Idx → EReal) (w : SW.Idx → EReal) (a g b : SV.Idx → EReal) (p : Fin 2048) (n : Fin 4096) :
    fcAll x w a g b (ix2 p n) =
      fcEntry (fun r k => x (ix2 r k)) (fun n k => w (ix2 n k))
        (fun k => a (ix2 (modelOf p) k)) (fun n => g (ix2 (modelOf p) n)) (fun n => b (ix2 (modelOf p) n))
        (rowOf p) n := rfl

def stackIdx (m : Fin 4) (r : Fin 512) : Fin 2048 := ⟨m.val * 512 + r.val, by omega⟩

theorem modelOf_stackIdx (m : Fin 4) (r : Fin 512) : modelOf (stackIdx m r) = m :=
  Fin.ext (by show (m.val * 512 + r.val) / 512 = m.val; omega)

theorem rowOf_stackIdx (m : Fin 4) (r : Fin 512) : rowOf (stackIdx m r) = r :=
  Fin.ext (by show (m.val * 512 + r.val) % 512 = r.val; omega)

theorem fcAll_stack (x : SX.Idx → EReal) (w : SW.Idx → EReal) (a g b : SV.Idx → EReal)
    (m : Fin 4) (r : Fin 512) (n : Fin 4096) :
    fcAll x w a g b (ix2 (stackIdx m r) n) =
      fcEntry (fun r k => x (ix2 r k)) (fun n k => w (ix2 n k))
        (fun k => a (ix2 m k)) (fun n => g (ix2 m n)) (fun n => b (ix2 m n)) r n := by
  rw [fcAll_ix2, modelOf_stackIdx, rowOf_stackIdx]

def tileIdx (k : Fin 4) (kk : Fin 1024) : Fin 4096 := ⟨k.val * 1024 + kk.val, by omega⟩

def tileEquiv : Fin 4 × Fin 1024 ≃ Fin 4096 where
  toFun p := tileIdx p.1 p.2
  invFun q := (⟨q.val / 1024, by omega⟩, ⟨q.val % 1024, by omega⟩)
  left_inv p := by
    obtain ⟨k, kk⟩ := p
    refine Prod.ext (Fin.ext ?_) (Fin.ext ?_)
    · show (k.val * 1024 + kk.val) / 1024 = k.val
      omega
    · show (k.val * 1024 + kk.val) % 1024 = kk.val
      omega
  right_inv q := Fin.ext (by show q.val / 1024 * 1024 + q.val % 1024 = q.val; omega)

theorem sum_tiles (f : Fin 4096 → EReal) :
    (((0 + ∑ kk : Fin 1024, f (tileIdx 0 kk)) + ∑ kk : Fin 1024, f (tileIdx 1 kk))
        + ∑ kk : Fin 1024, f (tileIdx 2 kk)) + ∑ kk : Fin 1024, f (tileIdx 3 kk)
      = ∑ q : Fin 4096, f q := by
  have h : ∑ q : Fin 4096, f q = ∑ p : Fin 4 × Fin 1024, f (tileEquiv p) :=
    (Equiv.sum_comp tileEquiv f).symm
  rw [h, Fintype.sum_prod_type, Fin.sum_univ_four, zero_add]
  rfl

end Cert.FcSpec

end
-- ==== Proof.FcIdeal.Kernel.Pieces.lean ====
import proofs.«129729_j34514357190659_1_alg».proof.Proof.FcIdeal.Kernel.Conds
import proofs.«129729_j34514357190659_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Fc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section AtIdeal

theorem k0_pay1_apply (j : S512x1024.Idx) : k0_pay1 (F := Ideal) j = 0 := by
  unfold k0_pay1
  refine (congrFun (shapeCast_self _ _) j).trans ?_
  exact Ideal.ofBits_zero_f32

theorem k0_pay2_lhs_0 (i : S512x1024.Idx) (k : dot_S512x1024_S1024x1024_S512x1024_1_1_0_0_n_n.contr.Idx) :
    (dot_S512x1024_S1024x1024_S512x1024_1_1_0_0_n_n.lhsIdx i k 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl

theorem k0_pay2_lhs_1 (i : S512x1024.Idx) (k : dot_S512x1024_S1024x1024_S512x1024_1_1_0_0_n_n.contr.Idx) :
    (dot_S512x1024_S1024x1024_S512x1024_1_1_0_0_n_n.lhsIdx i k 1).val = (k ⟨0, by decide⟩).val :=
  dot_S512x1024_S1024x1024_S512x1024_1_1_0_0_n_n.lhsIdx_val_of_single rfl i k

theorem k0_pay2_rhs_0 (i : S512x1024.Idx) (k : dot_S512x1024_S1024x1024_S512x1024_1_1_0_0_n_n.contr.Idx) :
    (dot_S512x1024_S1024x1024_S512x1024_1_1_0_0_n_n.rhsIdx i k 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl

theorem k0_pay2_rhs_1 (i : S512x1024.Idx) (k : dot_S512x1024_S1024x1024_S512x1024_1_1_0_0_n_n.contr.Idx) :
    (dot_S512x1024_S1024x1024_S512x1024_1_1_0_0_n_n.rhsIdx i k 1).val = (k ⟨0, by decide⟩).val :=
  dot_S512x1024_S1024x1024_S512x1024_1_1_0_0_n_n.rhsIdx_val_of_single rfl i k

theorem k0_pay2_apply (x0 : Vec Ideal S512x1024 .f32) (x2 : Vec Ideal S1x1024 .f32) (x1 : Vec Ideal S1024x1024 .f32)
    (s : Vec Ideal S512x1024 .f32) (p : Fin 512) (q : Fin 1024) :
    k0_pay2 (F := Ideal) x0 x2 x1 s (ix2 p q)
      = s (ix2 p q) + ∑ kk : Fin 1024, (x0 (ix2 p kk) * x2 (ix2 0 kk)) * x1 (ix2 q kk) := by
  unfold k0_pay2
  refine (congrFun (shapeCast_self _ _) (ix2 p q)).trans ?_
  refine congrArg (s (ix2 p q) + ·) ?_
  refine (Ideal.matmul_constant_zero_apply dot_S512x1024_S1024x1024_S512x1024_1_1_0_0_n_n none _ _ (ix2 p q)).trans ?_
  rw [← Equiv.sum_comp (contrEquiv1 dot_S512x1024_S1024x1024_S512x1024_1_1_0_0_n_n 1024 rfl rfl).symm]
  refine Finset.sum_congr rfl fun kk _ => ?_
  have hk := contrEquiv1_symm_val dot_S512x1024_S1024x1024_S512x1024_1_1_0_0_n_n 1024 rfl rfl kk
  have el : dot_S512x1024_S1024x1024_S512x1024_1_1_0_0_n_n.lhsIdx (ix2 p q) ((contrEquiv1 dot_S512x1024_S1024x1024_S512x1024_1_1_0_0_n_n 1024 rfl rfl).symm kk) = ix2 p kk := funext fun a => Fin.ext (by
    match a with
    | ⟨0, _⟩ => exact k0_pay2_lhs_0 _ _
    | ⟨1, _⟩ => exact (k0_pay2_lhs_1 _ _).trans hk)
  have er : dot_S512x1024_S1024x1024_S512x1024_1_1_0_0_n_n.rhsIdx (ix2 p q) ((contrEquiv1 dot_S512x1024_S1024x1024_S512x1024_1_1_0_0_n_n 1024 rfl rfl).symm kk) = ix2 q kk := funext fun a => Fin.ext (by
    match a with
    | ⟨0, _⟩ => exact k0_pay2_rhs_0 _ _
    | ⟨1, _⟩ => exact (k0_pay2_rhs_1 _ _).trans hk)
  rw [el, er]
  show x0 (ix2 p kk) * broadcastTo S512x1024 (shapeCast S1x1024 x2 shapeCasts_S1x1024_S1x1024) broadcasts_S1x1024_S512x1024 (ix2 p kk) * x1 (ix2 q kk) = _
  rw [broadcastTo_1b_ab_apply, shapeCast_self]

theorem k0_pay3_apply (x3 x4 : Vec Ideal S1x1024 .f32) (s : Vec Ideal S512x1024 .f32) (p : Fin 512) (q : Fin 1024) :
    k0_pay3 (F := Ideal) x3 x4 s (ix2 p q) = s (ix2 p q) * x3 (ix2 0 q) + x4 (ix2 0 q) := by
  unfold k0_pay3
  show s (ix2 p q) * broadcastTo S512x1024 (shapeCast S1x1024 x3 shapeCasts_S1x1024_S1x1024) broadcasts_S1x1024_S512x1024 (ix2 p q)
      + broadcastTo S512x1024 (shapeCast S1x1024 x4 shapeCasts_S1x1024_S1x1024) broadcasts_S1x1024_S512x1024 (ix2 p q) = _
  rw [broadcastTo_1b_ab_apply, broadcastTo_1b_ab_apply, shapeCast_self, shapeCast_self]

end AtIdeal

open Cert.FcSpec (tileIdx sum_tiles)
open scoped BigOperators

def k0_tileOf (k : ℕ) : Fin 4 := ⟨k % 4, Nat.mod_lt k (by decide)⟩

def k0_tileSum (f : Fin 4096 → EReal) (k : ℕ) : EReal := ∑ kk : Fin 1024, f (tileIdx (k0_tileOf k) kk)

def k0_partialSum (f : Fin 4096 → EReal) : ℕ → EReal
  | 0 => 0 + k0_tileSum f 0
  | j + 1 => k0_partialSum f j + k0_tileSum f (j + 1)

theorem k0_partialSum_three (f : Fin 4096 → EReal) : k0_partialSum f 3 = ∑ k : Fin 4096, f k := by
  rw [← sum_tiles f]
  rfl

end Cert.KernelIdeal.Fc

end
-- ==== Proof.FcIdeal.Kernel.Value.lean ====
import proofs.«129729_j34514357190659_1_alg».proof.Proof.FcIdeal.Kernel.Body
import proofs.«129729_j34514357190659_1_alg».proof.Proof.FcIdeal.Kernel.Pieces
import Idealize.ShloMosaic.Lib.Pipeline.Value
import Idealize.ShloMosaic.Lib.ValueIdx
import Idealize.ShloMosaic.Lib.Tactic

set_option maxRecDepth 16384

noncomputable section

namespace Cert.KernelIdeal.Fc

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)
open Cert.FcSpec (fcEntry tileIdx sum_tiles)
open scoped BigOperators

theorem k0_idx_facts : ∀ t : Fin cfg0.N,
    win0_0.index t (0 : Fin 2) = 0 ∧ win0_0.index t (1 : Fin 2) = t.val % 4
    ∧ win0_1.index t (0 : Fin 2) = t.val / 4 ∧ win0_1.index t (1 : Fin 2) = t.val % 4
    ∧ win0_2.index t (0 : Fin 2) = 0 ∧ win0_2.index t (1 : Fin 2) = t.val % 4
    ∧ win0_3.index t (0 : Fin 2) = 0 ∧ win0_3.index t (1 : Fin 2) = t.val / 4
    ∧ win0_4.index t (0 : Fin 2) = 0 ∧ win0_4.index t (1 : Fin 2) = t.val / 4
    ∧ win0_5.index t (0 : Fin 2) = 0 ∧ win0_5.index t (1 : Fin 2) = t.val / 4 :=
  (by decide +kernel : ∀ t : Fin grid0.N, _)

theorem k0_mem_blk (t : Fin cfg0.N) (i : S512x4096.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole (Pipeline.arrRef spec0 5)).slice (win0_5.rect t)).set ↔ _
  rw [View.set_slice_whole, Rect.mem_set_unit]
  exact Iff.rfl

theorem k0_cover (i : S512x4096.Idx) : ∃ t : Fin cfg0.N, (cfg0.win 5).flush t = true ∧ i ∈ ((cfg0.win 5).blk t).view.set := by
  have h0 : (i 0).val < 512 := (i 0).isLt
  have h1 : (i 1).val < 4096 := (i 1).isLt
  have hN : cfg0.N = 16 := N_0
  have hlt : 4 * ((i 1).val / 1024) + 3 < cfg0.N := by omega
  obtain ⟨-, -, -, -, -, -, -, -, -, -, e0, e1⟩ := k0_idx_facts ⟨4 * ((i 1).val / 1024) + 3, hlt⟩
  refine ⟨⟨4 * ((i 1).val / 1024) + 3, hlt⟩, (flush0_5 _).mpr (by show (4 * ((i 1).val / 1024) + 3) % 4 = 3; omega), ?_⟩
  rw [k0_mem_blk]
  intro a
  match a with
  | ⟨0, _⟩ =>
    show win0_5.index ⟨4 * ((i 1).val / 1024) + 3, hlt⟩ (0 : Fin 2) * 512 ≤ (i 0).val ∧ (i 0).val < win0_5.index ⟨4 * ((i 1).val / 1024) + 3, hlt⟩ (0 : Fin 2) * 512 + 512
    omega
  | ⟨1, _⟩ =>
    show win0_5.index ⟨4 * ((i 1).val / 1024) + 3, hlt⟩ (1 : Fin 2) * 1024 ≤ (i 1).val ∧ (i 1).val < win0_5.index ⟨4 * ((i 1).val / 1024) + 3, hlt⟩ (1 : Fin 2) * 1024 + 1024
    have e1' : win0_5.index ⟨4 * ((i 1).val / 1024) + 3, hlt⟩ (1 : Fin 2) = (4 * ((i 1).val / 1024) + 3) / 4 := e1
    omega

section
variable (X : Vec Ideal S512x4096 .f32) (W : Vec Ideal S4096x4096 .f32) (A G B : Vec Ideal S1x4096 .f32)

abbrev k0_xblk (t : Fin cfg0.N) : Vec Ideal S512x1024 .f32 := ((cfg0.win 0).blk t).view.read (Elt Ideal) X
abbrev k0_wblk (t : Fin cfg0.N) : Vec Ideal S1024x1024 .f32 := ((cfg0.win 1).blk t).view.read (Elt Ideal) W
abbrev k0_ablk (t : Fin cfg0.N) : Vec Ideal S1x1024 .f32 := ((cfg0.win 2).blk t).view.read (Elt Ideal) A
abbrev k0_gblk (t : Fin cfg0.N) : Vec Ideal S1x1024 .f32 := ((cfg0.win 3).blk t).view.read (Elt Ideal) G
abbrev k0_bblk (t : Fin cfg0.N) : Vec Ideal S1x1024 .f32 := ((cfg0.win 4).blk t).view.read (Elt Ideal) B

theorem k0_xblk_apply (t : Fin cfg0.N) (p : Fin 512) (kk : Fin 1024) :
    k0_xblk X t (ix2 p kk) = X (ix2 p (tileIdx (k0_tileOf (t.val % 4)) kk)) := by
  obtain ⟨e0, e1, -⟩ := k0_idx_facts t
  unfold k0_xblk
  rw [View.read_apply]
  refine congrArg X (funext fun a => Fin.ext ?_)
  match a with
  | ⟨0, _⟩ => show win0_0.index t (0 : Fin 2) * 512 + 1 * p.val = p.val; omega
  | ⟨1, _⟩ => show win0_0.index t (1 : Fin 2) * 1024 + 1 * kk.val = t.val % 4 % 4 * 1024 + kk.val; omega

theorem k0_wblk_apply (t : Fin cfg0.N) (q kk : Fin 1024) :
    k0_wblk W t (ix2 q kk) = W (ix2 (tileIdx (k0_tileOf (t.val / 4)) q) (tileIdx (k0_tileOf (t.val % 4)) kk)) := by
  obtain ⟨-, -, e0, e1, -⟩ := k0_idx_facts t
  have hN : cfg0.N = 16 := N_0
  have ht : t.val < cfg0.N := t.isLt
  unfold k0_wblk
  rw [View.read_apply]
  refine congrArg W (funext fun a => Fin.ext ?_)
  match a with
  | ⟨0, _⟩ => show win0_1.index t (0 : Fin 2) * 1024 + 1 * q.val = t.val / 4 % 4 * 1024 + q.val; omega
  | ⟨1, _⟩ => show win0_1.index t (1 : Fin 2) * 1024 + 1 * kk.val = t.val % 4 % 4 * 1024 + kk.val; omega

theorem k0_ablk_apply (t : Fin cfg0.N) (kk : Fin 1024) :
    k0_ablk A t (ix2 0 kk) = A (ix2 0 (tileIdx (k0_tileOf (t.val % 4)) kk)) := by
  obtain ⟨-, -, -, -, e0, e1, -⟩ := k0_idx_facts t
  unfold k0_ablk
  rw [View.read_apply]
  refine congrArg A (funext fun a => Fin.ext ?_)
  match a with
  | ⟨0, _⟩ => show win0_2.index t (0 : Fin 2) * 1 + 1 * 0 = 0; omega
  | ⟨1, _⟩ => show win0_2.index t (1 : Fin 2) * 1024 + 1 * kk.val = t.val % 4 % 4 * 1024 + kk.val; omega

theorem k0_gblk_apply (t : Fin cfg0.N) (q : Fin 1024) :
    k0_gblk G t (ix2 0 q) = G (ix2 0 (tileIdx (k0_tileOf (t.val / 4)) q)) := by
  obtain ⟨-, -, -, -, -, -, e0, e1, -⟩ := k0_idx_facts t
  have hN : cfg0.N = 16 := N_0
  have ht : t.val < cfg0.N := t.isLt
  unfold k0_gblk
  rw [View.read_apply]
  refine congrArg G (funext fun a => Fin.ext ?_)
  match a with
  | ⟨0, _⟩ => show win0_3.index t (0 : Fin 2) * 1 + 1 * 0 = 0; omega
  | ⟨1, _⟩ => show win0_3.index t (1 : Fin 2) * 1024 + 1 * q.val = t.val / 4 % 4 * 1024 + q.val; omega

theorem k0_bblk_apply (t : Fin cfg0.N) (q : Fin 1024) :
    k0_bblk B t (ix2 0 q) = B (ix2 0 (tileIdx (k0_tileOf (t.val / 4)) q)) := by
  obtain ⟨-, -, -, -, -, -, -, -, e0, e1, -⟩ := k0_idx_facts t
  have hN : cfg0.N = 16 := N_0
  have ht : t.val < cfg0.N := t.isLt
  unfold k0_bblk
  rw [View.read_apply]
  refine congrArg B (funext fun a => Fin.ext ?_)
  match a with
  | ⟨0, _⟩ => show win0_4.index t (0 : Fin 2) * 1 + 1 * 0 = 0; omega
  | ⟨1, _⟩ => show win0_4.index t (1 : Fin 2) * 1024 + 1 * q.val = t.val / 4 % 4 * 1024 + q.val; omega

def k0_term (r : Fin 512) (col : Fin 4096) (k : Fin 4096) : EReal :=
  (X (ix2 r k) * A (ix2 0 k)) * W (ix2 col k)

theorem k0_body_sum (t : Fin cfg0.N) (p : Fin 512) (q : Fin 1024) :
    (∑ kk : Fin 1024, (k0_xblk X t (ix2 p kk) * k0_ablk A t (ix2 0 kk)) * k0_wblk W t (ix2 q kk))
      = k0_tileSum (k0_term X W A p (tileIdx (k0_tileOf (t.val / 4)) q)) (t.val % 4) := by
  unfold k0_tileSum k0_term
  refine Finset.sum_congr rfl fun kk _ => ?_
  rw [k0_xblk_apply X t p kk, k0_ablk_apply A t kk, k0_wblk_apply W t q kk]

/-- One point's update at place (p, q): its tile's sum onto zero at a first tile, onto the point before's elsewhere. -/
theorem k0_acc_step (t : Fin cfg0.N) (p : Fin 512) (q : Fin 1024) :
    accG X W A t.val t.isLt (ix2 p q)
      = (if t.val % 4 = 0 then 0 else (accG X W A (t.val - 1) (Nat.lt_of_le_of_lt (Nat.sub_le _ _) t.isLt)) (ix2 p q))
        + k0_tileSum (k0_term X W A p (tileIdx (k0_tileOf (t.val / 4)) q)) (t.val % 4) := by
  rw [accG_eq X W A t]
  unfold accOf
  refine (k0_pay2_apply (k0_xblk X t) (k0_ablk A t) (k0_wblk W t) _ p q).trans ?_
  rw [k0_body_sum X W A]
  by_cases h0 : t.val % 4 = 0
  · simp only [if_pos h0]; rw [k0_pay1_apply]
  · simp only [if_neg h0]

theorem k0_acc_inv (p : Fin 512) (q : Fin 1024) : ∀ (n : ℕ) (hn : n < cfg0.N),
    accG X W A n hn (ix2 p q) = k0_partialSum (k0_term X W A p (tileIdx (k0_tileOf (n / 4)) q)) (n % 4) := by
  intro n
  induction n using Nat.strong_induction_on with
  | _ n ih =>
    intro hn
    refine (k0_acc_step X W A ⟨n, hn⟩ p q).trans ?_
    show (if n % 4 = 0 then 0 else accG X W A (n - 1) _ (ix2 p q)) + k0_tileSum _ (n % 4) = k0_partialSum _ (n % 4)
    by_cases h0 : n % 4 = 0
    · rw [if_pos h0, h0]
      rfl
    · obtain ⟨j, hj⟩ : ∃ j, n % 4 = j + 1 := ⟨n % 4 - 1, by omega⟩
      rw [if_neg h0, ih (n - 1) (by omega), show (n - 1) / 4 = n / 4 by omega, show (n - 1) % 4 = j by omega, hj]
      rfl

def k0_value : Vec Ideal S512x4096 .f32 := fun i =>
  fcEntry (fun r k => X (ix2 r k)) (fun n k => W (ix2 n k)) (fun k => A (ix2 0 k))
    (fun n => G (ix2 0 n)) (fun n => B (ix2 0 n)) (i 0) (i 1)

/-- At a last tile the output's block holds the finished entries, read at the block's own place in the result. -/
theorem k0_out_at (t : Fin cfg0.N) (h1 : t.val % 4 = 3) (p : Fin 512) (q : Fin 1024) :
    k0_pay3 (k0_gblk G t) (k0_bblk B t) (accG X W A t.val t.isLt) (ix2 p q)
      = k0_value X W A G B (((cfg0.win 5).blk t).view.emb (ix2 p q)) := by
  obtain ⟨-, -, -, -, -, -, -, -, -, -, e0, e1⟩ := k0_idx_facts t
  have hN : cfg0.N = 16 := N_0
  have ht : t.val < cfg0.N := t.isLt
  refine (k0_pay3_apply (k0_gblk G t) (k0_bblk B t) _ p q).trans ?_
  rw [k0_gblk_apply, k0_bblk_apply, k0_acc_inv X W A p q t.val t.isLt, h1, k0_partialSum_three]
  refine Eq.trans (b := k0_value X W A G B (ix2 p (tileIdx (k0_tileOf (t.val / 4)) q))) rfl ?_
  refine congrArg (k0_value X W A G B) (funext fun a => Fin.ext ?_)
  match a with
  | ⟨0, _⟩ => show p.val = win0_5.index t (0 : Fin 2) * 512 + 1 * p.val; omega
  | ⟨1, _⟩ => show t.val / 4 % 4 * 1024 + q.val = win0_5.index t (1 : Fin 2) * 1024 + 1 * q.val; omega

end

end Cert.KernelIdeal.Fc
end
-- ==== Proof.FcIdeal.Region0.Value.lean ====
import proofs.«129729_j34514357190659_1_alg».proof.Proof.FcIdeal.Region0.Data
import proofs.«129729_j34514357190659_1_alg».proof.Proof.FcIdeal.Kernel.Value

set_option maxRecDepth 16384

noncomputable section

namespace Cert.KernelIdeal.Fc

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)
open Cert.FcSpec (fcEntry tileIdx sum_tiles)
open scoped BigOperators

section
variable (V : (c : Dev nD) → (b : Ref sig .tc) → Buf (Elt Ideal) ((c : Thread nD τ).loc b))

theorem k0_flushed_eq (c : Dev nD) (t : Fin cfg0.N) (hf : (cfg0.win 5).flush t = true) :
    (dat0 V c).flushed 5 t = ((cfg0.win 5).blk t).view.read (Elt Ideal) (k0_value (V c (Pipeline.arrRef spec0 0)) (V c (Pipeline.arrRef spec0 1)) (V c (Pipeline.arrRef spec0 2)) (V c (Pipeline.arrRef spec0 3)) (V c (Pipeline.arrRef spec0 4))) := by
  show (cfg0.win 5).cut (grid0.coords t) ((dat0 V c).after 5 t) = _
  funext j
  obtain ⟨p, q, rfl⟩ : ∃ (p : Fin 512) (q : Fin 1024), j = ix2 p q := ⟨j 0, j 1, eq_ix2 j⟩
  exact k0_out_at _ _ _ _ _ t ((flush0_5 t).mp hf) p q

theorem result0 (c : Dev nD) (r : Fin 512) (n : Fin 4096) :
    (dat0 (F := Ideal) V c).arrAt 5 cfg0.N (ix2 r n)
      = fcEntry (fun r k => V c (Pipeline.arrRef spec0 0) (ix2 r k)) (fun n k => V c (Pipeline.arrRef spec0 1) (ix2 n k))
          (fun k => V c (Pipeline.arrRef spec0 2) (ix2 0 k)) (fun n => V c (Pipeline.arrRef spec0 3) (ix2 0 n))
          (fun n => V c (Pipeline.arrRef spec0 4) (ix2 0 n)) r n := by
  rw [(dat0 V c).arrAt_eq_of_cover 5 _ (k0_flushed_eq V c) k0_cover]
  rfl

end
end Cert.KernelIdeal.Fc
end
-- ==== Proof.FcIdeal.Region1.Value.lean ====
import proofs.«129729_j34514357190659_1_alg».proof.Proof.FcIdeal.Region1.Data
import proofs.«129729_j34514357190659_1_alg».proof.Proof.FcIdeal.Kernel.Value

set_option maxRecDepth 16384

noncomputable section

namespace Cert.KernelIdeal.Fc

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)
open Cert.FcSpec (fcEntry tileIdx sum_tiles)
open scoped BigOperators

section
variable (V : (c : Dev nD) → (b : Ref sig .tc) → Buf (Elt Ideal) ((c : Thread nD τ).loc b))

theorem k1_flushed_eq (c : Dev nD) (t : Fin cfg1.N) (hf : (cfg1.win 5).flush t = true) :
    (dat1 V c).flushed 5 t = ((cfg1.win 5).blk t).view.read (Elt Ideal) (k0_value (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  funext j
  obtain ⟨p, q, rfl⟩ : ∃ (p : Fin 512) (q : Fin 1024), j = ix2 p q := ⟨j 0, j 1, eq_ix2 j⟩
  exact k0_out_at _ _ _ _ _ t ((flush1_5 t).mp hf) p q

theorem result1 (c : Dev nD) (r : Fin 512) (n : Fin 4096) :
    (dat1 (F := Ideal) V c).arrAt 5 cfg1.N (ix2 r n)
      = fcEntry (fun r k => V c (Pipeline.arrRef spec1 0) (ix2 r k)) (fun n k => V c (Pipeline.arrRef spec1 1) (ix2 n k))
          (fun k => V c (Pipeline.arrRef spec1 2) (ix2 0 k)) (fun n => V c (Pipeline.arrRef spec1 3) (ix2 0 n))
          (fun n => V c (Pipeline.arrRef spec1 4) (ix2 0 n)) r n := by
  rw [(dat1 V c).arrAt_eq_of_cover 5 _ (k1_flushed_eq V c) k0_cover]
  rfl

end
end Cert.KernelIdeal.Fc
end
-- ==== Proof.FcIdeal.Region2.Value.lean ====
import proofs.«129729_j34514357190659_1_alg».proof.Proof.FcIdeal.Region2.Data
import proofs.«129729_j34514357190659_1_alg».proof.Proof.FcIdeal.Kernel.Value

set_option maxRecDepth 16384

noncomputable section

namespace Cert.KernelIdeal.Fc

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)
open Cert.FcSpec (fcEntry tileIdx sum_tiles)
open scoped BigOperators

section
variable (V : (c : Dev nD) → (b : Ref sig .tc) → Buf (Elt Ideal) ((c : Thread nD τ).loc b))

theorem k2_flushed_eq (c : Dev nD) (t : Fin cfg2.N) (hf : (cfg2.win 5).flush t = true) :
    (dat2 V c).flushed 5 t = ((cfg2.win 5).blk t).view.read (Elt Ideal) (k0_value (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 V c).after 5 t) = _
  funext j
  obtain ⟨p, q, rfl⟩ : ∃ (p : Fin 512) (q : Fin 1024), j = ix2 p q := ⟨j 0, j 1, eq_ix2 j⟩
  exact k0_out_at _ _ _ _ _ t ((flush2_5 t).mp hf) p q

theorem result2 (c : Dev nD) (r : Fin 512) (n : Fin 4096) :
    (dat2 (F := Ideal) V c).arrAt 5 cfg2.N (ix2 r n)
      = fcEntry (fun r k => V c (Pipeline.arrRef spec2 0) (ix2 r k)) (fun n k => V c (Pipeline.arrRef spec2 1) (ix2 n k))
          (fun k => V c (Pipeline.arrRef spec2 2) (ix2 0 k)) (fun n => V c (Pipeline.arrRef spec2 3) (ix2 0 n))
          (fun n => V c (Pipeline.arrRef spec2 4) (ix2 0 n)) r n := by
  rw [(dat2 V c).arrAt_eq_of_cover 5 _ (k2_flushed_eq V c) k0_cover]
  rfl

end
end Cert.KernelIdeal.Fc
end
-- ==== Proof.FcIdeal.Region3.Value.lean ====
import proofs.«129729_j34514357190659_1_alg».proof.Proof.FcIdeal.Region3.Data
import proofs.«129729_j34514357190659_1_alg».proof.Proof.FcIdeal.Kernel.Value

set_option maxRecDepth 16384

noncomputable section

namespace Cert.KernelIdeal.Fc

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)
open Cert.FcSpec (fcEntry tileIdx sum_tiles)
open scoped BigOperators

section
variable (V : (c : Dev nD) → (b : Ref sig .tc) → Buf (Elt Ideal) ((c : Thread nD τ).loc b))

theorem k3_flushed_eq (c : Dev nD) (t : Fin cfg3.N) (hf : (cfg3.win 5).flush t = true) :
    (dat3 V c).flushed 5 t = ((cfg3.win 5).blk t).view.read (Elt Ideal) (k0_value (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 V c).after 5 t) = _
  funext j
  obtain ⟨p, q, rfl⟩ : ∃ (p : Fin 512) (q : Fin 1024), j = ix2 p q := ⟨j 0, j 1, eq_ix2 j⟩
  exact k0_out_at _ _ _ _ _ t ((flush3_5 t).mp hf) p q

theorem result3 (c : Dev nD) (r : Fin 512) (n : Fin 4096) :
    (dat3 (F := Ideal) V c).arrAt 5 cfg3.N (ix2 r n)
      = fcEntry (fun r k => V c (Pipeline.arrRef spec3 0) (ix2 r k)) (fun n k => V c (Pipeline.arrRef spec3 1) (ix2 n k))
          (fun k => V c (Pipeline.arrRef spec3 2) (ix2 0 k)) (fun n => V c (Pipeline.arrRef spec3 3) (ix2 0 n))
          (fun n => V c (Pipeline.arrRef spec3 4) (ix2 0 n)) r n := by
  rw [(dat3 V c).arrAt_eq_of_cover 5 _ (k3_flushed_eq V c) k0_cover]
  rfl

end
end Cert.KernelIdeal.Fc
end
-- ==== Proof.RefRead.lean ====
import proofs.«129729_j34514357190659_1_alg».proof.Proof.Gen.ReferenceIdeal.Run
import proofs.«129729_j34514357190659_1_alg».proof.Proof.Gen.ReferenceIdeal.Read
-- ==== Proof.FcIdeal.Final.lean ====
import proofs.«129729_j34514357190659_1_alg».proof.Proof.FcIdeal.Fold
import proofs.«129729_j34514357190659_1_alg».proof.Proof.FcIdeal.Region0.Value
import proofs.«129729_j34514357190659_1_alg».proof.Proof.FcIdeal.Region1.Value
import proofs.«129729_j34514357190659_1_alg».proof.Proof.FcIdeal.Region2.Value
import proofs.«129729_j34514357190659_1_alg».proof.Proof.FcIdeal.Region3.Value
import proofs.«129729_j34514357190659_1_alg».proof.Proof.Spec
import proofs.«129729_j34514357190659_1_alg».proof.Proof.RefRead
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Fc

open Cert.KernelIdeal Cert.KernelIdeal.Gen
open Idealize.ShloMosaic Idealize.ShloMosaic.TcCoe Idealize.ShloMosaic.ValueIdx
open Idealize.SL.Sem
open Cert.FcSpec

theorem stackIdx_modelOf_rowOf (p : Fin 2048) : stackIdx (modelOf p) (rowOf p) = p :=
  Fin.ext (by show p.val / 512 * 512 + p.val % 512 = p.val; omega)

theorem concat4_rows {α : Type} (u0 u1 u2 u3 : S512x4096.Idx → α)
    (h : Shape.Concatenates [S512x4096, S512x4096, S512x4096, S512x4096] S2048x4096 0)
    (mm : Fin 4) (r : Fin 512) (n : Fin 4096) :
    concatenate S2048x4096 0 [⟨S512x4096, u0⟩, ⟨S512x4096, u1⟩, ⟨S512x4096, u2⟩, ⟨S512x4096, u3⟩] h (ix2 (stackIdx mm r) n)
      = (![u0, u1, u2, u3] mm) (ix2 r n) := by
  refine concatenate_ofFn_apply (t := S2048x4096) (s₁ := S512x4096) (0 : Fin 2) ![u0, u1, u2, u3] h rfl 512 rfl _ mm ?_ (ix2 r n) ?_ fun b hb => ?_
  · show (mm.val * 512 + r.val) / 512 = mm.val
    omega
  · show r.val = (mm.val * 512 + r.val) % 512
    omega
  · match b, hb with
    | ⟨0, _⟩, hb => exact absurd rfl hb
    | ⟨1, _⟩, _ => rfl

theorem row_slice {α : Type} (o : Nat) (X : S4x4096.Idx → α) (h : S4x4096.Slices ![o, 0] S1x4096) (q : Fin 4) (hq : q.val = o)
    (n : Fin 4096) : extractStridedSlice S1x4096 ![o, 0] X h (ix2 0 n) = X (ix2 q n) :=
  slice2_axis0_apply o X h 0 n q (by rw [hq]; rfl)

theorem fcEntry_congr {x x' : Fin 512 → Fin 4096 → EReal} {w w' : Fin 4096 → Fin 4096 → EReal} {a a' g g' b b' : Fin 4096 → EReal}
    (hx : ∀ r k, x r k = x' r k) (hw : ∀ n k, w n k = w' n k) (ha : ∀ k, a k = a' k) (hg : ∀ n, g n = g' n) (hb : ∀ n, b n = b' n)
    (r : Fin 512) (n : Fin 4096) : fcEntry x w a g b r n = fcEntry x' w' a' g' b' r n := by
  rw [show x = x' from funext fun r => funext (hx r), show w = w' from funext fun n => funext (hw n),
    show a = a' from funext ha, show g = g' from funext hg, show b = b' from funext hb]

section Host

variable (V : Valuation τ sig (Elt Ideal))

theorem after0_2_main_v21 :
    StableHlo.after hostOps0_2 V (Proc.devRef .tc main_v21)
      = extractStridedSlice S1x4096 ![0, 0] (StableHlo.after hostOps0_2 V (Proc.devRef .tc main_v20)) slices_S4x4096_S1x4096_0_0 := by
  open Idealize.ShloMosaic.StableHlo in after_results_simp

theorem after0_2_main_v22 :
    StableHlo.after hostOps0_2 V (Proc.devRef .tc main_v22)
      = extractStridedSlice S1x4096 ![0, 0] (V (Proc.devRef .tc main_arg3)) slices_S4x4096_S1x4096_0_0 := by
  open Idealize.ShloMosaic.StableHlo in after_results_simp
theorem after0_2_main_v23 :
    StableHlo.after hostOps0_2 V (Proc.devRef .tc main_v23)
      = extractStridedSlice S1x4096 ![0, 0] (V (Proc.devRef .tc main_arg4)) slices_S4x4096_S1x4096_0_0 := by
  open Idealize.ShloMosaic.StableHlo in after_results_simp

theorem after1_main_v25 :
    StableHlo.after hostOps1 V (Proc.devRef .tc main_v25)
      = extractStridedSlice S1x4096 ![1, 0] (V (Proc.devRef .tc main_v20)) slices_S4x4096_S1x4096_1_0 := by
  open Idealize.ShloMosaic.StableHlo in after_results_simp
theorem after1_main_v26 :
    StableHlo.after hostOps1 V (Proc.devRef .tc main_v26)
      = extractStridedSlice S1x4096 ![1, 0] (V (Proc.devRef .tc main_arg3)) slices_S4x4096_S1x4096_1_0 := by
  open Idealize.ShloMosaic.StableHlo in after_results_simp
theorem after1_main_v27 :
    StableHlo.after hostOps1 V (Proc.devRef .tc main_v27)
      = extractStridedSlice S1x4096 ![1, 0] (V (Proc.devRef .tc main_arg4)) slices_S4x4096_S1x4096_1_0 := by
  open Idealize.ShloMosaic.StableHlo in after_results_simp

theorem after2_main_v29 :
    StableHlo.after hostOps2 V (Proc.devRef .tc main_v29)
      = extractStridedSlice S1x4096 ![2, 0] (V (Proc.devRef .tc main_v20)) slices_S4x4096_S1x4096_2_0 := by
  open Idealize.ShloMosaic.StableHlo in after_results_simp
theorem after2_main_v30 :
    StableHlo.after hostOps2 V (Proc.devRef .tc main_v30)
      = extractStridedSlice S1x4096 ![2, 0] (V (Proc.devRef .tc main_arg3)) slices_S4x4096_S1x4096_2_0 := by
  open Idealize.ShloMosaic.StableHlo in after_results_simp
theorem after2_main_v31 :
    StableHlo.after hostOps2 V (Proc.devRef .tc main_v31)
      = extractStridedSlice S1x4096 ![2, 0] (V (Proc.devRef .tc main_arg4)) slices_S4x4096_S1x4096_2_0 := by
  open Idealize.ShloMosaic.StableHlo in after_results_simp

theorem after3_main_v33 :
    StableHlo.after hostOps3 V (Proc.devRef .tc main_v33)
      = extractStridedSlice S1x4096 ![3, 0] (V (Proc.devRef .tc main_v20)) slices_S4x4096_S1x4096_3_0 := by
  open Idealize.ShloMosaic.StableHlo in after_results_simp
theorem after3_main_v34 :
    StableHlo.after hostOps3 V (Proc.devRef .tc main_v34)
      = extractStridedSlice S1x4096 ![3, 0] (V (Proc.devRef .tc main_arg3)) slices_S4x4096_S1x4096_3_0 := by
  open Idealize.ShloMosaic.StableHlo in after_results_simp
theorem after3_main_v35 :
    StableHlo.after hostOps3 V (Proc.devRef .tc main_v35)
      = extractStridedSlice S1x4096 ![3, 0] (V (Proc.devRef .tc main_arg4)) slices_S4x4096_S1x4096_3_0 := by
  open Idealize.ShloMosaic.StableHlo in after_results_simp

theorem after4_main_v37 :
    StableHlo.after hostOps4 V (Proc.devRef .tc main_v37)
      = concatenate S2048x4096 0 [⟨S512x4096, V (Proc.devRef .tc main_v24)⟩, ⟨S512x4096, V (Proc.devRef .tc main_v28)⟩,
          ⟨S512x4096, V (Proc.devRef .tc main_v32)⟩, ⟨S512x4096, V (Proc.devRef .tc main_v36)⟩]
          concatenates_S512x4096_S512x4096_S512x4096_S512x4096_S2048x4096_d0 := by
  open Idealize.ShloMosaic.StableHlo in after_results
  rfl

end Host

variable (m : (ℓ : Loc nD τ sig) → Buf (Elt Ideal) ℓ)

abbrev alphaDec (c : Dev nD) : S4x4096.Idx → EReal :=
  Cert.ReferenceIdeal.Read.val_main_v20 (F := Ideal)
    (m ((c : Thread nD τ).loc main_arg1)) (m ((c : Thread nD τ).loc main_arg2))
    (m ((c : Thread nD τ).loc main_arg6)) (m ((c : Thread nD τ).loc main_arg7))
    (m ((c : Thread nD τ).loc main_arg8)) (m ((c : Thread nD τ).loc main_arg9))
    (m ((c : Thread nD τ).loc main_arg10)) (m ((c : Thread nD τ).loc main_arg11))

set_option maxHeartbeats 2000000 in

theorem W3_main_v20 (c : Dev nD) : W3 m c (Proc.devRef .tc main_v20) = alphaDec m c := by
  show StableHlo.after hostOps0_2 (StableHlo.after hostOps0_1 (StableHlo.after hostOps0 (W0 m c))) (Proc.devRef .tc main_v20) = _
  open Idealize.ShloMosaic.StableHlo in after_results_simp
  simp only [StableHlo.TRef.ofBuf, StableHlo.TRef.toBuf, cast_eq]
  rfl

theorem E3_row_a (c : Dev nD) (k : Fin 4096) : E3 m c main_v21 (ix2 0 k) = alphaDec m c (ix2 0 k) := by
  show StableHlo.after hostOps0_2 (W2 m c) (Proc.devRef .tc main_v21) (ix2 0 k) = _
  rw [after0_2_main_v21, row_slice 0 _ _ 0 rfl]
  exact congrFun (W3_main_v20 m c) _
theorem E3_row_g (c : Dev nD) (n : Fin 4096) : E3 m c main_v22 (ix2 0 n) = m ((c : Thread nD τ).loc main_arg3) (ix2 0 n) := by
  show StableHlo.after hostOps0_2 (W2 m c) (Proc.devRef .tc main_v22) (ix2 0 n) = _
  rw [after0_2_main_v22, row_slice 0 _ _ 0 rfl]
  exact congrFun (W2_main_arg3 m c) _
theorem E3_row_b (c : Dev nD) (n : Fin 4096) : E3 m c main_v23 (ix2 0 n) = m ((c : Thread nD τ).loc main_arg4) (ix2 0 n) := by
  show StableHlo.after hostOps0_2 (W2 m c) (Proc.devRef .tc main_v23) (ix2 0 n) = _
  rw [after0_2_main_v23, row_slice 0 _ _ 0 rfl]
  exact congrFun (W2_main_arg4 m c) _

theorem E5_row_a (c : Dev nD) (k : Fin 4096) : E5 m c main_v25 (ix2 0 k) = alphaDec m c (ix2 1 k) := by
  show StableHlo.after hostOps1 (W4 m c) (Proc.devRef .tc main_v25) (ix2 0 k) = _
  rw [after1_main_v25, row_slice 1 _ _ 1 rfl]
  exact congrFun ((W4_main_v20 m c).trans (W3_main_v20 m c)) _
theorem E5_row_g (c : Dev nD) (n : Fin 4096) : E5 m c main_v26 (ix2 0 n) = m ((c : Thread nD τ).loc main_arg3) (ix2 1 n) := by
  show StableHlo.after hostOps1 (W4 m c) (Proc.devRef .tc main_v26) (ix2 0 n) = _
  rw [after1_main_v26, row_slice 1 _ _ 1 rfl]
  exact congrFun (W4_main_arg3 m c) _
theorem E5_row_b (c : Dev nD) (n : Fin 4096) : E5 m c main_v27 (ix2 0 n) = m ((c : Thread nD τ).loc main_arg4) (ix2 1 n) := by
  show StableHlo.after hostOps1 (W4 m c) (Proc.devRef .tc main_v27) (ix2 0 n) = _
  rw [after1_main_v27, row_slice 1 _ _ 1 rfl]
  exact congrFun (W4_main_arg4 m c) _

theorem E7_row_a (c : Dev nD) (k : Fin 4096) : E7 m c main_v29 (ix2 0 k) = alphaDec m c (ix2 2 k) := by
  show StableHlo.after hostOps2 (W6 m c) (Proc.devRef .tc main_v29) (ix2 0 k) = _
  rw [after2_main_v29, row_slice 2 _ _ 2 rfl]
  exact congrFun ((W6_main_v20 m c).trans (W3_main_v20 m c)) _
theorem E7_row_g (c : Dev nD) (n : Fin 4096) : E7 m c main_v30 (ix2 0 n) = m ((c : Thread nD τ).loc main_arg3) (ix2 2 n) := by
  show StableHlo.after hostOps2 (W6 m c) (Proc.devRef .tc main_v30) (ix2 0 n) = _
  rw [after2_main_v30, row_slice 2 _ _ 2 rfl]
  exact congrFun (W6_main_arg3 m c) _
theorem E7_row_b (c : Dev nD) (n : Fin 4096) : E7 m c main_v31 (ix2 0 n) = m ((c : Thread nD τ).loc main_arg4) (ix2 2 n) := by
  show StableHlo.after hostOps2 (W6 m c) (Proc.devRef .tc main_v31) (ix2 0 n) = _
  rw [after2_main_v31, row_slice 2 _ _ 2 rfl]
  exact congrFun (W6_main_arg4 m c) _

theorem E9_row_a (c : Dev nD) (k : Fin 4096) : E9 m c main_v33 (ix2 0 k) = alphaDec m c (ix2 3 k) := by
  show StableHlo.after hostOps3 (W8 m c) (Proc.devRef .tc main_v33) (ix2 0 k) = _
  rw [after3_main_v33, row_slice 3 _ _ 3 rfl]
  exact congrFun ((W8_main_v20 m c).trans (W3_main_v20 m c)) _
theorem E9_row_g (c : Dev nD) (n : Fin 4096) : E9 m c main_v34 (ix2 0 n) = m ((c : Thread nD τ).loc main_arg3) (ix2 3 n) := by
  show StableHlo.after hostOps3 (W8 m c) (Proc.devRef .tc main_v34) (ix2 0 n) = _
  rw [after3_main_v34, row_slice 3 _ _ 3 rfl]
  exact congrFun (W8_main_arg3 m c) _
theorem E9_row_b (c : Dev nD) (n : Fin 4096) : E9 m c main_v35 (ix2 0 n) = m ((c : Thread nD τ).loc main_arg4) (ix2 3 n) := by
  show StableHlo.after hostOps3 (W8 m c) (Proc.devRef .tc main_v35) (ix2 0 n) = _
  rw [after3_main_v35, row_slice 3 _ _ 3 rfl]
  exact congrFun (W8_main_arg4 m c) _

section Result

theorem piece0 (c : Dev nD) (r : Fin 512) (n : Fin 4096) :
    W10 m c (Proc.devRef .tc main_v24) (ix2 r n)
      = fcEntry (fun r k => m ((c : Thread nD τ).loc main_arg0) (ix2 r k)) (fun n k => m ((c : Thread nD τ).loc main_arg5) (ix2 n k))
          (fun k => alphaDec m c (ix2 0 k)) (fun n => m ((c : Thread nD τ).loc main_arg3) (ix2 0 n))
          (fun n => m ((c : Thread nD τ).loc main_arg4) (ix2 0 n)) r n :=
  (congrFun (W10_main_v24 m c) _).trans <| (result0 (E3 m) c r n).trans <|
    fcEntry_congr (fun r k => congrFun (E3_main_arg0 m c) _) (fun n k => congrFun (E3_main_arg5 m c) _)
      (E3_row_a m c) (E3_row_g m c) (E3_row_b m c) r n

theorem piece1 (c : Dev nD) (r : Fin 512) (n : Fin 4096) :
    W10 m c (Proc.devRef .tc main_v28) (ix2 r n)
      = fcEntry (fun r k => m ((c : Thread nD τ).loc main_arg0) (ix2 r k)) (fun n k => m ((c : Thread nD τ).loc main_arg5) (ix2 n k))
          (fun k => alphaDec m c (ix2 1 k)) (fun n => m ((c : Thread nD τ).loc main_arg3) (ix2 1 n))
          (fun n => m ((c : Thread nD τ).loc main_arg4) (ix2 1 n)) r n :=
  (congrFun (W10_main_v28 m c) _).trans <| (result1 (E5 m) c r n).trans <|
    fcEntry_congr (fun r k => congrFun (E5_main_arg0 m c) _) (fun n k => congrFun (E5_main_arg5 m c) _)
      (E5_row_a m c) (E5_row_g m c) (E5_row_b m c) r n

theorem piece2 (c : Dev nD) (r : Fin 512) (n : Fin 4096) :
    W10 m c (Proc.devRef .tc main_v32) (ix2 r n)
      = fcEntry (fun r k => m ((c : Thread nD τ).loc main_arg0) (ix2 r k)) (fun n k => m ((c : Thread nD τ).loc main_arg5) (ix2 n k))
          (fun k => alphaDec m c (ix2 2 k)) (fun n => m ((c : Thread nD τ).loc main_arg3) (ix2 2 n))
          (fun n => m ((c : Thread nD τ).loc main_arg4) (ix2 2 n)) r n :=
  (congrFun (W10_main_v32 m c) _).trans <| (result2 (E7 m) c r n).trans <|
    fcEntry_congr (fun r k => congrFun (E7_main_arg0 m c) _) (fun n k => congrFun (E7_main_arg5 m c) _)
      (E7_row_a m c) (E7_row_g m c) (E7_row_b m c) r n

theorem piece3 (c : Dev nD) (r : Fin 512) (n : Fin 4096) :
    W10 m c (Proc.devRef .tc main_v36) (ix2 r n)
      = fcEntry (fun r k => m ((c : Thread nD τ).loc main_arg0) (ix2 r k)) (fun n k => m ((c : Thread nD τ).loc main_arg5) (ix2 n k))
          (fun k => alphaDec m c (ix2 3 k)) (fun n => m ((c : Thread nD τ).loc main_arg3) (ix2 3 n))
          (fun n => m ((c : Thread nD τ).loc main_arg4) (ix2 3 n)) r n :=
  (congrFun (W10_main_v36 m c) _).trans <| (result3 (E9 m) c r n).trans <|
    fcEntry_congr (fun r k => congrFun (E9_main_arg0 m c) _) (fun n k => congrFun (E9_main_arg5 m c) _)
      (E9_row_a m c) (E9_row_g m c) (E9_row_b m c) r n

theorem kernel_result (c : Dev nD) :
    W11 m c (Proc.devRef .tc main_v37)
      = fcAll (m ((c : Thread nD τ).loc main_arg0)) (m ((c : Thread nD τ).loc main_arg5))
          (Cert.ReferenceIdeal.Read.val_main_v20 (F := Ideal)
            (m ((c : Thread nD τ).loc main_arg1)) (m ((c : Thread nD τ).loc main_arg2))
            (m ((c : Thread nD τ).loc main_arg6)) (m ((c : Thread nD τ).loc main_arg7))
            (m ((c : Thread nD τ).loc main_arg8)) (m ((c : Thread nD τ).loc main_arg9))
            (m ((c : Thread nD τ).loc main_arg10)) (m ((c : Thread nD τ).loc main_arg11)))
          (m ((c : Thread nD τ).loc main_arg3)) (m ((c : Thread nD τ).loc main_arg4)) := by
  show StableHlo.after hostOps4 (W10 m c) (Proc.devRef .tc main_v37) = _
  rw [after4_main_v37]
  funext i
  obtain ⟨p, n, rfl⟩ : ∃ (p : Fin 2048) (n : Fin 4096), i = ix2 p n := ⟨i 0, i 1, eq_ix2 i⟩
  obtain ⟨mm, r, rfl⟩ : ∃ (mm : Fin 4) (r : Fin 512), p = stackIdx mm r := ⟨modelOf p, rowOf p, (stackIdx_modelOf_rowOf p).symm⟩
  rw [concat4_rows]
  refine Eq.trans ?_ (fcAll_stack _ _ _ _ _ mm r n).symm
  fin_cases mm
  · exact piece0 m c r n
  · exact piece1 m c r n
  · exact piece2 m c r n
  · exact piece3 m c r n

end Result

end Cert.KernelIdeal.Fc

end
-- ==== Proof.RefValue.lean ====
import proofs.«129729_j34514357190659_1_alg».proof.Proof.RefRead
import proofs.«129729_j34514357190659_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.FcSpec

theorem idx_x (p : Fin 2048) (n k : Fin 4096) :
    idx_main_v21 (idx_main_v22 (idx_main_v23 (lidx_main_v32 (ix2 p n) k))) = ix2 (rowOf p) k :=
  funext fun a => Fin.ext (match a with
    | ⟨0, _⟩ => by have hp := p.isLt; have hk := k.isLt; show (((0 * 512 + (p.val * 4096 + k.val) / 4096 % 512) * 1 + 0) * 4096 + (p.val * 4096 + k.val) % 4096) / 4096 = p.val % 512; omega
    | ⟨1, _⟩ => by have hp := p.isLt; have hk := k.isLt; show (((0 * 512 + (p.val * 4096 + k.val) / 4096 % 512) * 1 + 0) * 4096 + (p.val * 4096 + k.val) % 4096) % 4096 = k.val; omega)

theorem idx_a (p : Fin 2048) (n k : Fin 4096) :
    idx_main_v24 (idx_main_v25 (lidx_main_v32 (ix2 p n) k)) = ix2 (modelOf p) k :=
  funext fun a => Fin.ext (match a with
    | ⟨0, _⟩ => by have hp := p.isLt; have hk := k.isLt; show (p.val * 4096 + k.val) / 2097152 = p.val / 512; omega
    | ⟨1, _⟩ => by have hp := p.isLt; have hk := k.isLt; show (p.val * 4096 + k.val) % 4096 = k.val; omega)

theorem idx_w (p : Fin 2048) (n k : Fin 4096) :
    idx_main_v31 (ridx_main_v32 (ix2 p n) k) = ix2 n k :=
  funext fun a => Fin.ext (match a with
    | ⟨0, _⟩ => rfl
    | ⟨1, _⟩ => rfl)

theorem idx_g (p : Fin 2048) (n : Fin 4096) :
    idx_main_v26 (idx_main_v27 (ix2 p n)) = ix2 (modelOf p) n :=
  funext fun a => Fin.ext (match a with
    | ⟨0, _⟩ => by have hp := p.isLt; have hn := n.isLt; show (p.val * 4096 + n.val) / 2097152 = p.val / 512; omega
    | ⟨1, _⟩ => by have hp := p.isLt; have hn := n.isLt; show (p.val * 4096 + n.val) % 4096 = n.val; omega)

theorem idx_b (p : Fin 2048) (n : Fin 4096) :
    idx_main_v28 (idx_main_v29 (ix2 p n)) = ix2 (modelOf p) n :=
  funext fun a => Fin.ext (match a with
    | ⟨0, _⟩ => by have hp := p.isLt; have hn := n.isLt; show (p.val * 4096 + n.val) / 2097152 = p.val / 512; omega
    | ⟨1, _⟩ => by have hp := p.isLt; have hn := n.isLt; show (p.val * 4096 + n.val) % 4096 = n.val; omega)

theorem ref_is_fcAll
    (x0 : (⟨S512x4096, .f32⟩ : BufTy).Contents (Elt Ideal)) (x1 : (⟨S4x32, .f32⟩ : BufTy).Contents (Elt Ideal))
    (x2 x3 x4 : (⟨S4x4096, .f32⟩ : BufTy).Contents (Elt Ideal)) (x5 : (⟨S4096x4096, .f32⟩ : BufTy).Contents (Elt Ideal))
    (x6 : (⟨S32x4096, .f32⟩ : BufTy).Contents (Elt Ideal)) (x7 : (⟨S32, .f32⟩ : BufTy).Contents (Elt Ideal))
    (x8 : (⟨S32x32, .f32⟩ : BufTy).Contents (Elt Ideal)) (x9 : (⟨S32, .f32⟩ : BufTy).Contents (Elt Ideal))
    (x10 : (⟨S4096x32, .f32⟩ : BufTy).Contents (Elt Ideal)) (x11 : (⟨S4096, .f32⟩ : BufTy).Contents (Elt Ideal)) :
    val_main_v34 (F := Ideal) x0 x1 x2 x3 x4 x5 x6 x7 x8 x9 x10 x11
      = fcAll x0 x5 (val_main_v20 (F := Ideal) x1 x2 x6 x7 x8 x9 x10 x11) x3 x4 := by
  funext i
  obtain ⟨p, n, rfl⟩ : ∃ (p : Fin 2048) (n : Fin 4096), i = ix2 p n := ⟨i 0, i 1, eq_ix2 i⟩
  rw [val_main_v34_apply, val_main_v33_apply, val_main_v32_apply, val_main_v27_apply, val_main_v26_apply,
    val_main_v29_apply, val_main_v28_apply, idx_g, idx_b, fcAll_ix2]
  unfold fcEntry
  simp only [val_main_v30_apply, val_main_v23_apply, val_main_v22_apply, val_main_v21_apply, val_main_v25_apply,
    val_main_v24_apply, val_main_v31_apply, idx_x, idx_a, idx_w, Ideal.mulf_def, Ideal.addf_def]

end Cert.ReferenceIdeal.RefValue

end
-- ==== Proof.lean ====
import proofs.«129729_j34514357190659_1_alg».proof.Defs
import proofs.«129729_j34514357190659_1_alg».proof.Proof.Gen.Kernel
import proofs.«129729_j34514357190659_1_alg».proof.Proof.Gen.KernelIdeal
import proofs.«129729_j34514357190659_1_alg».proof.Proof.Gen.ReferenceIdeal
import proofs.«129729_j34514357190659_1_alg».proof.Proof.Gen.Pre_finite_inputs
import proofs.«129729_j34514357190659_1_alg».proof.Proof.FcIdeal.Launch
import proofs.«129729_j34514357190659_1_alg».proof.Proof.FcIdeal.Final
import proofs.«129729_j34514357190659_1_alg».proof.Proof.RefValue
import Idealize.ShloMosaic.Adequacy
import Idealize.ShloMosaic.Init

noncomputable section

namespace Cert.Proof

open Idealize.ShloMosaic Idealize.ShloMosaic.TcCoe Idealize.ShloMosaic.Tactic Idealize.SL.Sem

/-- The word-level program and its idealization are one text, so the frame proved at any float instance is its frame too. -/
theorem frame_k : Cert.frame_Kernel :=
  cast (by sl_kernel_rfl) fun m ρ (_ : Cert.Pre_Kernel m) => Cert.KernelIdeal.Fc.frame (F := Bits) m ρ

theorem frame_ki : Cert.frame_KernelIdeal := fun m ρ _ => Cert.KernelIdeal.Fc.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' _ hagree
  refine ⟨fun c => Cert.FcSpec.fcAll (m ((c.tc : Thread Cert.KernelIdeal.nD Cert.KernelIdeal.τ).loc Cert.KernelIdeal.main_arg0)) (m ((c.tc : Thread Cert.KernelIdeal.nD Cert.KernelIdeal.τ).loc Cert.KernelIdeal.main_arg5))
      (Cert.ReferenceIdeal.Read.val_main_v20 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun r h c => ⟨?_, ?_, ?_, ?_, ?_, ?_, ?_, ?_, ?_, ?_, ?_, ?_, ?_⟩) (Cert.KernelIdeal.Fc.run_all (F := Ideal) m ρ)
    · exact (h c _ (Cert.KernelIdeal.Fc.mem_uc Cert.KernelIdeal.main_v37 (by decide))).trans (Cert.KernelIdeal.Fc.kernel_result m c)
    · exact (h c _ (Cert.KernelIdeal.Fc.mem_uc Cert.KernelIdeal.main_arg0 (by decide))).trans (Cert.KernelIdeal.Fc.W11_main_arg0 m c)
    · exact (h c _ (Cert.KernelIdeal.Fc.mem_uc Cert.KernelIdeal.main_arg1 (by decide))).trans (Cert.KernelIdeal.Fc.W11_main_arg1 m c)
    · exact (h c _ (Cert.KernelIdeal.Fc.mem_uc Cert.KernelIdeal.main_arg2 (by decide))).trans (Cert.KernelIdeal.Fc.W11_main_arg2 m c)
    · exact (h c _ (Cert.KernelIdeal.Fc.mem_uc Cert.KernelIdeal.main_arg3 (by decide))).trans (Cert.KernelIdeal.Fc.W11_main_arg3 m c)
    · exact (h c _ (Cert.KernelIdeal.Fc.mem_uc Cert.KernelIdeal.main_arg4 (by decide))).trans (Cert.KernelIdeal.Fc.W11_main_arg4 m c)
    · exact (h c _ (Cert.KernelIdeal.Fc.mem_uc Cert.KernelIdeal.main_arg5 (by decide))).trans (Cert.KernelIdeal.Fc.W11_main_arg5 m c)
    · exact (h c _ (Cert.KernelIdeal.Fc.mem_uc Cert.KernelIdeal.main_arg6 (by decide))).trans (Cert.KernelIdeal.Fc.W11_main_arg6 m c)
    · exact (h c _ (Cert.KernelIdeal.Fc.mem_uc Cert.KernelIdeal.main_arg7 (by decide))).trans (Cert.KernelIdeal.Fc.W11_main_arg7 m c)
    · exact (h c _ (Cert.KernelIdeal.Fc.mem_uc Cert.KernelIdeal.main_arg8 (by decide))).trans (Cert.KernelIdeal.Fc.W11_main_arg8 m c)
    · exact (h c _ (Cert.KernelIdeal.Fc.mem_uc Cert.KernelIdeal.main_arg9 (by decide))).trans (Cert.KernelIdeal.Fc.W11_main_arg9 m c)
    · exact (h c _ (Cert.KernelIdeal.Fc.mem_uc Cert.KernelIdeal.main_arg10 (by decide))).trans (Cert.KernelIdeal.Fc.W11_main_arg10 m c)
    · exact (h c _ (Cert.KernelIdeal.Fc.mem_uc Cert.KernelIdeal.main_arg11 (by decide))).trans (Cert.KernelIdeal.Fc.W11_main_arg11 m c)
  · refine (θ_run Cert.ReferenceIdeal.defs _ _).mono (fun r h c => ⟨?_, (h c).2⟩) (Cert.ReferenceIdeal.Value.run (F := Ideal) m' ρ')
    rw [(h c).1, Cert.ReferenceIdeal.Read.val_main_v34_eq, Cert.ReferenceIdeal.RefValue.ref_is_fcAll,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
